-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S608x512 : Shape := ⟨2, ![608, 512]⟩
abbrev S416x512 : Shape := ⟨2, ![416, 512]⟩
abbrev S_ : Shape := ⟨0, ![]⟩
abbrev S11 : Shape := ⟨1, ![11]⟩
abbrev S7 : Shape := ⟨1, ![7]⟩
abbrev S64x512 : Shape := ⟨2, ![64, 512]⟩
abbrev S1 : Shape := ⟨1, ![1]⟩
abbrev S32x512 : Shape := ⟨2, ![32, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S1024x512, .bf16⟩
  | .local _ .vmem, ⟨0, _⟩ => ⟨S1024x512, .bf16⟩
  | .local _ .vmem, ⟨1, _⟩ => ⟨S1024x512, .f32⟩
  | .local _ .vmem, ⟨2, _⟩ => ⟨S608x512, .bf16⟩
  | .local _ .vmem, ⟨3, _⟩ => ⟨S608x512, .bf16⟩
  | .local _ .vmem, ⟨4, _⟩ => ⟨S416x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_16 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v11 : BitVec 32 := Scalar.muli v5 c512_i32
  let v27 : BitVec 32 := Scalar.addi v11 c0_i32_16
  let v28 : Index := Scalar.indexCast v27
  let c0 : Index := 0#32
  ![v28.toNat, 0]
def k0_off1_at (r : Fin 7) : BitVec 32 :=
  if r.val < 3 then
    if r.val < 1 then
      0#32
    else
      if r.val < 2 then
        64#32
      else
        128#32
  else
    if r.val < 5 then
      if r.val < 4 then
        192#32
      else
        256#32
    else
      if r.val < 6 then
        320#32
      else
        416#32
def k0_dev3 (d0 : Dev nD) : Nat :=
  let c0_i32_22 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_21 : BitVec 32 := 8#32
  let v34 : BitVec 32 := Scalar.muli v9 c8_i32_21
  let v35 : BitVec 32 := Scalar.addi c0_i32_22 v34
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v36 : BitVec 32 := Scalar.muli v5 c4_i32_23
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v38 : BitVec 32 := Scalar.muli v8 c1_i32_24
  let v39 : BitVec 32 := Scalar.addi v37 v38
  v39.toNat
def k0_dev4 (d0 : Dev nD) : Nat :=
  let c0_i32_34 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_33 : BitVec 32 := 8#32
  let v53 : BitVec 32 := Scalar.muli v9 c8_i32_33
  let v54 : BitVec 32 := Scalar.addi c0_i32_34 v53
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v55 : BitVec 32 := Scalar.muli v5 c4_i32_35
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_36 : BitVec 32 := 1#32
  let v57 : BitVec 32 := Scalar.muli v8 c1_i32_36
  let v58 : BitVec 32 := Scalar.addi v56 v57
  v58.toNat
def k0_dev5 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v72 : BitVec 32 := Scalar.muli v9 c8_i32_45
  let v73 : BitVec 32 := Scalar.addi c0_i32_46 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v74 : BitVec 32 := Scalar.muli v5 c4_i32_47
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v76 : BitVec 32 := Scalar.muli v8 c1_i32_48
  let v77 : BitVec 32 := Scalar.addi v75 v76
  v77.toNat
def k0_dev6 (d0 : Dev nD) : Nat :=
  let c0_i32_57 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_56 : BitVec 32 := 8#32
  let v91 : BitVec 32 := Scalar.muli v9 c8_i32_56
  let v92 : BitVec 32 := Scalar.addi c0_i32_57 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v93 : BitVec 32 := Scalar.muli v5 c4_i32_58
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v95 : BitVec 32 := Scalar.muli v8 c1_i32_59
  let v96 : BitVec 32 := Scalar.addi v94 v95
  v96.toNat
def k0_dev7 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v110 : BitVec 32 := Scalar.muli v9 c8_i32_68
  let v111 : BitVec 32 := Scalar.addi c0_i32_69 v110
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v112 : BitVec 32 := Scalar.muli v5 c4_i32_70
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v114 : BitVec 32 := Scalar.muli v8 c1_i32_71
  let v115 : BitVec 32 := Scalar.addi v113 v114
  v115.toNat
def k0_dev8 (d0 : Dev nD) : Nat :=
  let c0_i32_80 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_79 : BitVec 32 := 8#32
  let v129 : BitVec 32 := Scalar.muli v9 c8_i32_79
  let v130 : BitVec 32 := Scalar.addi c0_i32_80 v129
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v131 : BitVec 32 := Scalar.muli v5 c4_i32_81
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v133 : BitVec 32 := Scalar.muli v8 c1_i32_82
  let v134 : BitVec 32 := Scalar.addi v132 v133
  v134.toNat
def k0_off2 (d0 : Dev nD) (c384_i32 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v11 : BitVec 32 := Scalar.muli v5 c512_i32
  let v141 : BitVec 32 := Scalar.addi v11 c384_i32
  let v142 : Index := Scalar.indexCast v141
  let c0_87 : Index := 0#32
  ![v142.toNat, 0]
def k0_dev9 (d0 : Dev nD) : Nat :=
  let c0_i32_91 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_90 : BitVec 32 := 8#32
  let v148 : BitVec 32 := Scalar.muli v9 c8_i32_90
  let v149 : BitVec 32 := Scalar.addi c0_i32_91 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_92 : BitVec 32 := 4#32
  let v150 : BitVec 32 := Scalar.muli v5 c4_i32_92
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_93 : BitVec 32 := 1#32
  let v152 : BitVec 32 := Scalar.muli v8 c1_i32_93
  let v153 : BitVec 32 := Scalar.addi v151 v152
  v153.toNat
def k0_dev10 (d0 : Dev nD) : Nat :=
  let c0_i32_102 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_101 : BitVec 32 := 8#32
  let v167 : BitVec 32 := Scalar.muli v9 c8_i32_101
  let v168 : BitVec 32 := Scalar.addi c0_i32_102 v167
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v169 : BitVec 32 := Scalar.muli v5 c4_i32_103
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v171 : BitVec 32 := Scalar.muli v8 c1_i32_104
  let v172 : BitVec 32 := Scalar.addi v170 v171
  v172.toNat
def k0_dev11 (d0 : Dev nD) : Nat :=
  let c0_i32_114 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_113 : BitVec 32 := 8#32
  let v186 : BitVec 32 := Scalar.muli v9 c8_i32_113
  let v187 : BitVec 32 := Scalar.addi c0_i32_114 v186
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v188 : BitVec 32 := Scalar.muli v5 c4_i32_115
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v190 : BitVec 32 := Scalar.muli v8 c1_i32_116
  let v191 : BitVec 32 := Scalar.addi v189 v190
  v191.toNat
def k0_off3 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let c0_i32_121 : BitVec 32 := 0#32
  let v198 : BitVec 32 := Scalar.addi v13 c0_i32_121
  let c416_i32_122 : BitVec 32 := 416#32
  let v199 : BitVec 32 := Scalar.addi v198 c416_i32_122
  let v200 : Index := Scalar.indexCast v199
  let c0_123 : Index := 0#32
  ![v200.toNat, 0]
def k0_dev12 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v206 : BitVec 32 := Scalar.muli v9 c8_i32_126
  let v207 : BitVec 32 := Scalar.addi c0_i32_127 v206
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v208 : BitVec 32 := Scalar.muli v5 c4_i32_128
  let v209 : BitVec 32 := Scalar.addi v207 v208
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v210 : BitVec 32 := Scalar.muli v8 c1_i32_129
  let v211 : BitVec 32 := Scalar.addi v209 v210
  v211.toNat
def k0_off4 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let c64_i32_134 : BitVec 32 := 64#32
  let v218 : BitVec 32 := Scalar.addi v13 c64_i32_134
  let c416_i32_135 : BitVec 32 := 416#32
  let v219 : BitVec 32 := Scalar.addi v218 c416_i32_135
  let v220 : Index := Scalar.indexCast v219
  let c0_136 : Index := 0#32
  ![v220.toNat, 0]
def k0_dev13 (d0 : Dev nD) : Nat :=
  let c0_i32_140 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_139 : BitVec 32 := 8#32
  let v226 : BitVec 32 := Scalar.muli v9 c8_i32_139
  let v227 : BitVec 32 := Scalar.addi c0_i32_140 v226
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v228 : BitVec 32 := Scalar.muli v5 c4_i32_141
  let v229 : BitVec 32 := Scalar.addi v227 v228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v230 : BitVec 32 := Scalar.muli v8 c1_i32_142
  let v231 : BitVec 32 := Scalar.addi v229 v230
  v231.toNat
def k0_dev14 (d0 : Dev nD) : Nat :=
  let c0_i32_159 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_158 : BitVec 32 := 8#32
  let v248 : BitVec 32 := Scalar.muli v2 c8_i32_158
  let v249 : BitVec 32 := Scalar.addi c0_i32_159 v248
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_160 : BitVec 32 := 4#32
  let v250 : BitVec 32 := Scalar.muli v10 c4_i32_160
  let v251 : BitVec 32 := Scalar.addi v249 v250
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v252 : BitVec 32 := Scalar.muli v8 c1_i32_161
  let v253 : BitVec 32 := Scalar.addi v251 v252
  v253.toNat
def k0_dev15 (d0 : Dev nD) : Nat :=
  let c0_i32_184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_183 : BitVec 32 := 8#32
  let v279 : BitVec 32 := Scalar.muli v2 c8_i32_183
  let v280 : BitVec 32 := Scalar.addi c0_i32_184 v279
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_185 : BitVec 32 := 4#32
  let v281 : BitVec 32 := Scalar.muli v10 c4_i32_185
  let v282 : BitVec 32 := Scalar.addi v280 v281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v283 : BitVec 32 := Scalar.muli v8 c1_i32_186
  let v284 : BitVec 32 := Scalar.addi v282 v283
  v284.toNat
def k0_dev16 (d0 : Dev nD) : Nat :=
  let c0_i32_209 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_208 : BitVec 32 := 8#32
  let v310 : BitVec 32 := Scalar.muli v2 c8_i32_208
  let v311 : BitVec 32 := Scalar.addi c0_i32_209 v310
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_210 : BitVec 32 := 4#32
  let v312 : BitVec 32 := Scalar.muli v10 c4_i32_210
  let v313 : BitVec 32 := Scalar.addi v311 v312
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v314 : BitVec 32 := Scalar.muli v8 c1_i32_211
  let v315 : BitVec 32 := Scalar.addi v313 v314
  v315.toNat
def k0_dev17 (d0 : Dev nD) : Nat :=
  let c0_i32_234 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_233 : BitVec 32 := 8#32
  let v341 : BitVec 32 := Scalar.muli v2 c8_i32_233
  let v342 : BitVec 32 := Scalar.addi c0_i32_234 v341
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_235 : BitVec 32 := 4#32
  let v343 : BitVec 32 := Scalar.muli v10 c4_i32_235
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_236 : BitVec 32 := 1#32
  let v345 : BitVec 32 := Scalar.muli v8 c1_i32_236
  let v346 : BitVec 32 := Scalar.addi v344 v345
  v346.toNat
def k0_dev18 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v372 : BitVec 32 := Scalar.muli v2 c8_i32_258
  let v373 : BitVec 32 := Scalar.addi c0_i32_259 v372
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_260 : BitVec 32 := 4#32
  let v374 : BitVec 32 := Scalar.muli v10 c4_i32_260
  let v375 : BitVec 32 := Scalar.addi v373 v374
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v376 : BitVec 32 := Scalar.muli v8 c1_i32_261
  let v377 : BitVec 32 := Scalar.addi v375 v376
  v377.toNat
def k0_dev19 (d0 : Dev nD) : Nat :=
  let c0_i32_284 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_283 : BitVec 32 := 8#32
  let v403 : BitVec 32 := Scalar.muli v2 c8_i32_283
  let v404 : BitVec 32 := Scalar.addi c0_i32_284 v403
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_285 : BitVec 32 := 4#32
  let v405 : BitVec 32 := Scalar.muli v10 c4_i32_285
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v407 : BitVec 32 := Scalar.muli v8 c1_i32_286
  let v408 : BitVec 32 := Scalar.addi v406 v407
  v408.toNat
def k0_dev20 (d0 : Dev nD) : Nat :=
  let c0_i32_309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_308 : BitVec 32 := 8#32
  let v434 : BitVec 32 := Scalar.muli v2 c8_i32_308
  let v435 : BitVec 32 := Scalar.addi c0_i32_309 v434
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_310 : BitVec 32 := 4#32
  let v436 : BitVec 32 := Scalar.muli v10 c4_i32_310
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v438 : BitVec 32 := Scalar.muli v8 c1_i32_311
  let v439 : BitVec 32 := Scalar.addi v437 v438
  v439.toNat
def k0_off5 (d0 : Dev nD) (c0_i32_393 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let v543 : BitVec 32 := Scalar.addi v13 c0_i32_393
  let v544 : Index := Scalar.indexCast v543
  let c0_394 : Index := 0#32
  ![v544.toNat, 0]
def k0_off6 (d0 : Dev nD) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c512_i32_5 : BitVec 32 := 512#32
  let v13 : BitVec 32 := Scalar.muli v12 c512_i32_5
  let c384_i32_483 : BitVec 32 := 384#32
  let v657 : BitVec 32 := Scalar.addi v13 c384_i32_483
  let v658 : Index := Scalar.indexCast v657
  let c0_484 : Index := 0#32
  ![v658.toNat, 0]
def k0_dev21 (d0 : Dev nD) : Nat :=
  let c0_i32_616_r0 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_615_r0 : BitVec 32 := 8#32
  let v739_r0 : BitVec 32 := Scalar.muli v9 c8_i32_615_r0
  let v740_r0 : BitVec 32 := Scalar.addi c0_i32_616_r0 v739_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_617_r0 : BitVec 32 := 4#32
  let v741_r0 : BitVec 32 := Scalar.muli v5 c4_i32_617_r0
  let v742_r0 : BitVec 32 := Scalar.addi v740_r0 v741_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_618_r0 : BitVec 32 := 1#32
  let v743_r0 : BitVec 32 := Scalar.muli v8 c1_i32_618_r0
  let v744_r0 : BitVec 32 := Scalar.addi v742_r0 v743_r0
  v744_r0.toNat
def k0_dev22 (d0 : Dev nD) : Nat :=
  let c0_i32_621_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_620_r0 : BitVec 32 := 8#32
  let v745_r0 : BitVec 32 := Scalar.muli v2 c8_i32_620_r0
  let v746_r0 : BitVec 32 := Scalar.addi c0_i32_621_r0 v745_r0
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_622_r0 : BitVec 32 := 4#32
  let v747_r0 : BitVec 32 := Scalar.muli v10 c4_i32_622_r0
  let v748_r0 : BitVec 32 := Scalar.addi v746_r0 v747_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_623_r0 : BitVec 32 := 1#32
  let v749_r0 : BitVec 32 := Scalar.muli v8 c1_i32_623_r0
  let v750_r0 : BitVec 32 := Scalar.addi v748_r0 v749_r0
  v750_r0.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_2 : (2#32 : BitVec 32).msb = false
  h_S64x512 : 0 < S64x512.numel
  bitsLt_bf16_f32 : FTy.bits .bf16 < FTy.bits .f32
  inb_S608x512_S64x512_0_0 : ∀ a, (![0, 0] : Fin 2 → Nat) a + S64x512.size a ≤ S608x512.size a
  shapeCasts_S64x512_S64x512 : S64x512.ShapeCasts S64x512
  packedbf16_S608x512_S64x512_0_0 : (Rect.unit (s := S608x512) ![0, 0] S64x512.size inb_S608x512_S64x512_0_0).PackedRows (EltTy.packing .bf16)
  inb_S11_S1_0 : ∀ a, (![0] : Fin 1 → Nat) a + S1.size a ≤ S11.size a
  squeezes_S1_S_ : S1.Squeezes S_
  wordsbf16_S608x512_S64x512_0_0 : (Rect.unit (s := S608x512) ![0, 0] S64x512.size inb_S608x512_S64x512_0_0).WholeWords (EltTy.packing .bf16)
  inb_S608x512_S64x512_64_0 : ∀ a, (![64, 0] : Fin 2 → Nat) a + S64x512.size a ≤ S608x512.size a
  packedbf16_S608x512_S64x512_64_0 : (Rect.unit (s := S608x512) ![64, 0] S64x512.size inb_S608x512_S64x512_64_0).PackedRows (EltTy.packing .bf16)
  inb_S11_S1_1 : ∀ a, (![1] : Fin 1 → Nat) a + S1.size a ≤ S11.size a
  wordsbf16_S608x512_S64x512_64_0 : (Rect.unit (s := S608x512) ![64, 0] S64x512.size inb_S608x512_S64x512_64_0).WholeWords (EltTy.packing .bf16)
  inb_S608x512_S64x512_128_0 : ∀ a, (![128, 0] : Fin 2 → Nat) a + S64x512.size a ≤ S608x512.size a
  packedbf16_S608x512_S64x512_128_0 : (Rect.unit (s := S608x512) ![128, 0] S64x512.size inb_S608x512_S64x512_128_0).PackedRows (EltTy.packing .bf16)
  inb_S11_S1_2 : ∀ a, (![2] : Fin 1 → Nat) a + S1.size a ≤ S11.size a
  wordsbf16_S608x512_S64x512_128_0 : (Rect.unit (s := S608x512) ![128, 0] S64x512.size inb_S608x512_S64x512_128_0).WholeWords (EltTy.packing .bf16)
  inb_S608x512_S64x512_192_0 : ∀ a, (![192, 0] : Fin 2 → Nat) a + S64x512.size a ≤ S608x512.size a
  packedbf16_S608x512_S64x512_192_0 : (Rect.unit (s := S608x512) ![192, 0] S64x512.size inb_S608x512_S64x512_192_0).PackedRows (EltTy.packing .bf16)
  inb_S11_S1_3 : ∀ a, (![3] : Fin 1 → Nat) a + S1.size a ≤ S11.size a
  wordsbf16_S608x512_S64x512_192_0 : (Rect.unit (s := S608x512) ![192, 0] S64x512.size inb_S608x512_S64x512_192_0).WholeWords (EltTy.packing .bf16)
  inb_S608x512_S64x512_256_0 : ∀ a, (![256, 0] : Fin 2 → Nat) a + S64x512.size a ≤ S608x512.size a
  packedbf16_S608x512_S64x512_256_0 : (Rect.unit (s := S608x512) ![256, 0] S64x512.size inb_S608x512_S64x512_256_0).PackedRows (EltTy.packing .bf16)
  inb_S11_S1_4 : ∀ a, (![4] : Fin 1 → Nat) a + S1.size a ≤ S11.size a
  wordsbf16_S608x512_S64x512_256_0 : (Rect.unit (s := S608x512) ![256, 0] S64x512.size inb_S608x512_S64x512_256_0).WholeWords (EltTy.packing .bf16)
  inb_S608x512_S64x512_320_0 : ∀ a, (![320, 0] : Fin 2 → Nat) a + S64x512.size a ≤ S608x512.size a
  packedbf16_S608x512_S64x512_320_0 : (Rect.unit (s := S608x512) ![320, 0] S64x512.size inb_S608x512_S64x512_320_0).PackedRows (EltTy.packing .bf16)
  inb_S11_S1_5 : ∀ a, (![5] : Fin 1 → Nat) a + S1.size a ≤ S11.size a
  wordsbf16_S608x512_S64x512_320_0 : (Rect.unit (s := S608x512) ![320, 0] S64x512.size inb_S608x512_S64x512_320_0).WholeWords (EltTy.packing .bf16)
  h_S32x512 : 0 < S32x512.numel
  inb_S608x512_S32x512_384_0 : ∀ a, (![384, 0] : Fin 2 → Nat) a + S32x512.size a ≤ S608x512.size a
  shapeCasts_S32x512_S32x512 : S32x512.ShapeCasts S32x512
  packedbf16_S608x512_S32x512_384_0 : (Rect.unit (s := S608x512) ![384, 0] S32x512.size inb_S608x512_S32x512_384_0).PackedRows (EltTy.packing .bf16)
  inb_S11_S1_6 : ∀ a, (![6] : Fin 1 → Nat) a + S1.size a ≤ S11.size a
  wordsbf16_S608x512_S32x512_384_0 : (Rect.unit (s := S608x512) ![384, 0] S32x512.size inb_S608x512_S32x512_384_0).WholeWords (EltTy.packing .bf16)
  inb_S608x512_S64x512_416_0 : ∀ a, (![416, 0] : Fin 2 → Nat) a + S64x512.size a ≤ S608x512.size a
  packedbf16_S608x512_S64x512_416_0 : (Rect.unit (s := S608x512) ![416, 0] S64x512.size inb_S608x512_S64x512_416_0).PackedRows (EltTy.packing .bf16)
  inb_S11_S1_7 : ∀ a, (![7] : Fin 1 → Nat) a + S1.size a ≤ S11.size a
  wordsbf16_S608x512_S64x512_416_0 : (Rect.unit (s := S608x512) ![416, 0] S64x512.size inb_S608x512_S64x512_416_0).WholeWords (EltTy.packing .bf16)
  inb_S608x512_S32x512_480_0 : ∀ a, (![480, 0] : Fin 2 → Nat) a + S32x512.size a ≤ S608x512.size a
  packedbf16_S608x512_S32x512_480_0 : (Rect.unit (s := S608x512) ![480, 0] S32x512.size inb_S608x512_S32x512_480_0).PackedRows (EltTy.packing .bf16)
  inb_S11_S1_8 : ∀ a, (![8] : Fin 1 → Nat) a + S1.size a ≤ S11.size a
  wordsbf16_S608x512_S32x512_480_0 : (Rect.unit (s := S608x512) ![480, 0] S32x512.size inb_S608x512_S32x512_480_0).WholeWords (EltTy.packing .bf16)
  inb_S608x512_S64x512_512_0 : ∀ a, (![512, 0] : Fin 2 → Nat) a + S64x512.size a ≤ S608x512.size a
  packedbf16_S608x512_S64x512_512_0 : (Rect.unit (s := S608x512) ![512, 0] S64x512.size inb_S608x512_S64x512_512_0).PackedRows (EltTy.packing .bf16)
  inb_S11_S1_9 : ∀ a, (![9] : Fin 1 → Nat) a + S1.size a ≤ S11.size a
  wordsbf16_S608x512_S64x512_512_0 : (Rect.unit (s := S608x512) ![512, 0] S64x512.size inb_S608x512_S64x512_512_0).WholeWords (EltTy.packing .bf16)
  inb_S608x512_S32x512_576_0 : ∀ a, (![576, 0] : Fin 2 → Nat) a + S32x512.size a ≤ S608x512.size a
  packedbf16_S608x512_S32x512_576_0 : (Rect.unit (s := S608x512) ![576, 0] S32x512.size inb_S608x512_S32x512_576_0).PackedRows (EltTy.packing .bf16)
  inb_S11_S1_10 : ∀ a, (![10] : Fin 1 → Nat) a + S1.size a ≤ S11.size a
  wordsbf16_S608x512_S32x512_576_0 : (Rect.unit (s := S608x512) ![576, 0] S32x512.size inb_S608x512_S32x512_576_0).WholeWords (EltTy.packing .bf16)
  inb_S7_S1_0 : ∀ a, (![0] : Fin 1 → Nat) a + S1.size a ≤ S7.size a
  inb_S416x512_S64x512_0_0 : ∀ a, (![0, 0] : Fin 2 → Nat) a + S64x512.size a ≤ S416x512.size a
  wordsbf16_S416x512_S64x512_0_0 : (Rect.unit (s := S416x512) ![0, 0] S64x512.size inb_S416x512_S64x512_0_0).WholeWords (EltTy.packing .bf16)
  inb_S7_S1_1 : ∀ a, (![1] : Fin 1 → Nat) a + S1.size a ≤ S7.size a
  inb_S416x512_S64x512_64_0 : ∀ a, (![64, 0] : Fin 2 → Nat) a + S64x512.size a ≤ S416x512.size a
  wordsbf16_S416x512_S64x512_64_0 : (Rect.unit (s := S416x512) ![64, 0] S64x512.size inb_S416x512_S64x512_64_0).WholeWords (EltTy.packing .bf16)
  inb_S7_S1_2 : ∀ a, (![2] : Fin 1 → Nat) a + S1.size a ≤ S7.size a
  inb_S416x512_S64x512_128_0 : ∀ a, (![128, 0] : Fin 2 → Nat) a + S64x512.size a ≤ S416x512.size a
  wordsbf16_S416x512_S64x512_128_0 : (Rect.unit (s := S416x512) ![128, 0] S64x512.size inb_S416x512_S64x512_128_0).WholeWords (EltTy.packing .bf16)
  inb_S7_S1_3 : ∀ a, (![3] : Fin 1 → Nat) a + S1.size a ≤ S7.size a
  inb_S416x512_S64x512_192_0 : ∀ a, (![192, 0] : Fin 2 → Nat) a + S64x512.size a ≤ S416x512.size a
  wordsbf16_S416x512_S64x512_192_0 : (Rect.unit (s := S416x512) ![192, 0] S64x512.size inb_S416x512_S64x512_192_0).WholeWords (EltTy.packing .bf16)
  inb_S7_S1_4 : ∀ a, (![4] : Fin 1 → Nat) a + S1.size a ≤ S7.size a
  inb_S416x512_S64x512_256_0 : ∀ a, (![256, 0] : Fin 2 → Nat) a + S64x512.size a ≤ S416x512.size a
  wordsbf16_S416x512_S64x512_256_0 : (Rect.unit (s := S416x512) ![256, 0] S64x512.size inb_S416x512_S64x512_256_0).WholeWords (EltTy.packing .bf16)
  inb_S7_S1_5 : ∀ a, (![5] : Fin 1 → Nat) a + S1.size a ≤ S7.size a
  inb_S416x512_S64x512_320_0 : ∀ a, (![320, 0] : Fin 2 → Nat) a + S64x512.size a ≤ S416x512.size a
  wordsbf16_S416x512_S64x512_320_0 : (Rect.unit (s := S416x512) ![320, 0] S64x512.size inb_S416x512_S64x512_320_0).WholeWords (EltTy.packing .bf16)
  inb_S7_S1_6 : ∀ a, (![6] : Fin 1 → Nat) a + S1.size a ≤ S7.size a
  inb_S416x512_S32x512_384_0 : ∀ a, (![384, 0] : Fin 2 → Nat) a + S32x512.size a ≤ S416x512.size a
  wordsbf16_S416x512_S32x512_384_0 : (Rect.unit (s := S416x512) ![384, 0] S32x512.size inb_S416x512_S32x512_384_0).WholeWords (EltTy.packing .bf16)
  hcc0_scoped0 : 1 + S_.numel ≤ 2
  hcc0_scratch4 : 1 + S_.numel ≤ 38
  hcc0_scratch5 : 2 + S11.numel ≤ 38
  hcc0_scratch6 : 13 + S11.numel ≤ 38
  hcc0_scratch7 : 24 + S7.numel ≤ 38
  hcc0_scratch8 : 31 + S7.numel ≤ 38
  k0_dev1_lt : ∀ d0 : Dev nD, (k0_dev1 d0) < nD
  k0_dev2_lt : ∀ d0 : Dev nD, (k0_dev2 d0) < nD
  k0_off1_inb : ∀ d0 : Dev nD, ∀ (r : Fin 7), ∀ a, (k0_off1 d0 (k0_off1_at r)) a + S64x512.size a ≤ S1024x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_off2_inb : ∀ d0 : Dev nD, ∀ (r : Fin 2), ∀ a, (k0_off2 d0 (BitVec.ofNat 32 (384 + 96 * r.val))) a + S32x512.size a ≤ S1024x512.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off3_inb : ∀ d0 : Dev nD, ∀ a, (k0_off3 d0) a + S64x512.size a ≤ S1024x512.size a
  k0_dev12_lt : ∀ d0 : Dev nD, (k0_dev12 d0) < nD
  k0_off4_inb : ∀ d0 : Dev nD, ∀ a, (k0_off4 d0) a + S32x512.size a ≤ S1024x512.size a
  k0_dev13_lt : ∀ d0 : Dev nD, (k0_dev13 d0) < nD
  k0_dev14_lt : ∀ d0 : Dev nD, (k0_dev14 d0) < nD
  k0_off1_packedbf16 : ∀ d0 : Dev nD, ∀ (r : Fin 7), (Rect.unit (s := S1024x512) (k0_off1 d0 (k0_off1_at r)) S64x512.size (k0_off1_inb d0 r)).PackedRows (EltTy.packing .bf16)
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_off2_packedbf16 : ∀ d0 : Dev nD, ∀ (r : Fin 2), (Rect.unit (s := S1024x512) (k0_off2 d0 (BitVec.ofNat 32 (384 + 96 * r.val))) S32x512.size (k0_off2_inb d0 r)).PackedRows (EltTy.packing .bf16)
  k0_off3_packedbf16 : ∀ d0 : Dev nD, (Rect.unit (s := S1024x512) (k0_off3 d0) S64x512.size (k0_off3_inb d0)).PackedRows (EltTy.packing .bf16)
  k0_off4_packedbf16 : ∀ d0 : Dev nD, (Rect.unit (s := S1024x512) (k0_off4 d0) S32x512.size (k0_off4_inb d0)).PackedRows (EltTy.packing .bf16)
  k0_off5_inb : ∀ d0 : Dev nD, ∀ (r : Fin 6), ∀ a, (k0_off5 d0 (BitVec.ofNat 32 (64 * r.val))) a + S64x512.size a ≤ S1024x512.size a
  k0_off5_packedbf16 : ∀ d0 : Dev nD, ∀ (r : Fin 6), (Rect.unit (s := S1024x512) (k0_off5 d0 (BitVec.ofNat 32 (64 * r.val))) S64x512.size (k0_off5_inb d0 r)).PackedRows (EltTy.packing .bf16)
  k0_off6_inb : ∀ d0 : Dev nD, ∀ a, (k0_off6 d0) a + S32x512.size a ≤ S1024x512.size a
  k0_off6_packedbf16 : ∀ d0 : Dev nD, (Rect.unit (s := S1024x512) (k0_off6 d0) S32x512.size (k0_off6_inb d0)).PackedRows (EltTy.packing .bf16)
  k0_dev21_lt : ∀ d0 : Dev nD, (k0_dev21 d0) < nD
  k0_dev22_lt : ∀ d0 : Dev nD, (k0_dev22 d0) < nD
  hstage0_0 : ∀ j, (stage0_0 j).IsWhole

variable [Facts₀]

abbrev cc0_scoped0 : Sems sig S_ := SemArray.consecutive 1 S_ hcc0_scoped0
abbrev cc0_scratch4 : DmaSems sig S_ := SemArray.consecutive 1 S_ hcc0_scratch4
abbrev cc0_scratch5 : DmaSems sig S11 := SemArray.consecutive 2 S11 hcc0_scratch5
abbrev cc0_scratch6 : DmaSems sig S11 := SemArray.consecutive 13 S11 hcc0_scratch6
abbrev cc0_scratch7 : DmaSems sig S7 := SemArray.consecutive 24 S7 hcc0_scratch7
abbrev cc0_scratch8 : DmaSems sig S7 := SemArray.consecutive 31 S7 hcc0_scratch8

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x512 : Shape := ⟨2, ![2048, 512]⟩
abbrev S2x1024x512 : Shape := ⟨3, ![2, 1024, 512]⟩
abbrev S_ : Shape := ⟨0, ![]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2x1024x512, .f32⟩
  | .hbm, ⟨2, _⟩ => ⟨S_, .f32⟩
  | .hbm, ⟨3, _⟩ => ⟨S1024x512, .f32⟩
  | .hbm, ⟨4, _⟩ => ⟨S1024x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S2048x512_S2x1024x512 : S2048x512.ShapeCasts S2x1024x512
  reducesTo_S2x1024x512_S1024x512_d0 : S2x1024x512.ReducesTo [0] S1024x512
  h_S_ : 0 < S_.numel
  bitsLt_bf16_f32 : FTy.bits .bf16 < FTy.bits .f32

variable [Facts₀]

class Facts : Prop extends Facts₀ where

variable [Facts]
-- ==== Proof.Slices.lean ====
import proofs.«900705_g7700000000000706_dist_ar_v7x_xyz2x2x4_x_m1024_n512_bf16_1_alg».proof.Proof.Gen.KernelIdeal

noncomputable section

namespace Cert.KernelIdeal.AR

open Cert.KernelIdeal Cert.KernelIdeal.Gen
open Idealize.ShloMosaic

abbrev aM : Memref sig .tc .hbm S1024x512 .f32 := Memref.whole main_arg0
abbrev oM : Memref sig .tc .vmem S1024x512 .bf16 := Memref.whole cc0_stg0_0
abbrev xvM : Memref sig .tc .vmem S1024x512 .f32 := Memref.whole cc0_scratch0
abbrev xsM : Memref sig .tc .vmem S608x512 .bf16 := Memref.whole cc0_scratch1
abbrev xrM : Memref sig .tc .vmem S608x512 .bf16 := Memref.whole cc0_scratch2
abbrev yrM : Memref sig .tc .vmem S416x512 .bf16 := Memref.whole cc0_scratch3

abbrev xs0 : Memref sig .tc .vmem S64x512 .bf16 := xsM.slice (Rect.unit (s := S608x512) ![0, 0] S64x512.size inb_S608x512_S64x512_0_0) (fun _ => rfl)
abbrev xs1 : Memref sig .tc .vmem S64x512 .bf16 := xsM.slice (Rect.unit (s := S608x512) ![64, 0] S64x512.size inb_S608x512_S64x512_64_0) (fun _ => rfl)
abbrev xs2 : Memref sig .tc .vmem S64x512 .bf16 := xsM.slice (Rect.unit (s := S608x512) ![128, 0] S64x512.size inb_S608x512_S64x512_128_0) (fun _ => rfl)
abbrev xs3 : Memref sig .tc .vmem S64x512 .bf16 := xsM.slice (Rect.unit (s := S608x512) ![192, 0] S64x512.size inb_S608x512_S64x512_192_0) (fun _ => rfl)
abbrev xs4 : Memref sig .tc .vmem S64x512 .bf16 := xsM.slice (Rect.unit (s := S608x512) ![256, 0] S64x512.size inb_S608x512_S64x512_256_0) (fun _ => rfl)
abbrev xs5 : Memref sig .tc .vmem S64x512 .bf16 := xsM.slice (Rect.unit (s := S608x512) ![320, 0] S64x512.size inb_S608x512_S64x512_320_0) (fun _ => rfl)
abbrev xs6 : Memref sig .tc .vmem S32x512 .bf16 := xsM.slice (Rect.unit (s := S608x512) ![384, 0] S32x512.size inb_S608x512_S32x512_384_0) (fun _ => rfl)
abbrev xs7 : Memref sig .tc .vmem S64x512 .bf16 := xsM.slice (Rect.unit (s := S608x512) ![416, 0] S64x512.size inb_S608x512_S64x512_416_0) (fun _ => rfl)
abbrev xs8 : Memref sig .tc .vmem S32x512 .bf16 := xsM.slice (Rect.unit (s := S608x512) ![480, 0] S32x512.size inb_S608x512_S32x512_480_0) (fun _ => rfl)
abbrev xs9 : Memref sig .tc .vmem S64x512 .bf16 := xsM.slice (Rect.unit (s := S608x512) ![512, 0] S64x512.size inb_S608x512_S64x512_512_0) (fun _ => rfl)
abbrev xs10 : Memref sig .tc .vmem S32x512 .bf16 := xsM.slice (Rect.unit (s := S608x512) ![576, 0] S32x512.size inb_S608x512_S32x512_576_0) (fun _ => rfl)

abbrev xr0 : Memref sig .tc .vmem S64x512 .bf16 := xrM.slice (Rect.unit (s := S608x512) ![0, 0] S64x512.size inb_S608x512_S64x512_0_0) (fun _ => rfl)
abbrev xr1 : Memref sig .tc .vmem S64x512 .bf16 := xrM.slice (Rect.unit (s := S608x512) ![64, 0] S64x512.size inb_S608x512_S64x512_64_0) (fun _ => rfl)
abbrev xr2 : Memref sig .tc .vmem S64x512 .bf16 := xrM.slice (Rect.unit (s := S608x512) ![128, 0] S64x512.size inb_S608x512_S64x512_128_0) (fun _ => rfl)
abbrev xr3 : Memref sig .tc .vmem S64x512 .bf16 := xrM.slice (Rect.unit (s := S608x512) ![192, 0] S64x512.size inb_S608x512_S64x512_192_0) (fun _ => rfl)
abbrev xr4 : Memref sig .tc .vmem S64x512 .bf16 := xrM.slice (Rect.unit (s := S608x512) ![256, 0] S64x512.size inb_S608x512_S64x512_256_0) (fun _ => rfl)
abbrev xr5 : Memref sig .tc .vmem S64x512 .bf16 := xrM.slice (Rect.unit (s := S608x512) ![320, 0] S64x512.size inb_S608x512_S64x512_320_0) (fun _ => rfl)
abbrev xr6 : Memref sig .tc .vmem S32x512 .bf16 := xrM.slice (Rect.unit (s := S608x512) ![384, 0] S32x512.size inb_S608x512_S32x512_384_0) (fun _ => rfl)
abbrev xr7 : Memref sig .tc .vmem S64x512 .bf16 := xrM.slice (Rect.unit (s := S608x512) ![416, 0] S64x512.size inb_S608x512_S64x512_416_0) (fun _ => rfl)
abbrev xr8 : Memref sig .tc .vmem S32x512 .bf16 := xrM.slice (Rect.unit (s := S608x512) ![480, 0] S32x512.size inb_S608x512_S32x512_480_0) (fun _ => rfl)
abbrev xr9 : Memref sig .tc .vmem S64x512 .bf16 := xrM.slice (Rect.unit (s := S608x512) ![512, 0] S64x512.size inb_S608x512_S64x512_512_0) (fun _ => rfl)
abbrev xr10 : Memref sig .tc .vmem S32x512 .bf16 := xrM.slice (Rect.unit (s := S608x512) ![576, 0] S32x512.size inb_S608x512_S32x512_576_0) (fun _ => rfl)

abbrev yr0 : Memref sig .tc .vmem S64x512 .bf16 := yrM.slice (Rect.unit (s := S416x512) ![0, 0] S64x512.size inb_S416x512_S64x512_0_0) (fun _ => rfl)
abbrev yr1 : Memref sig .tc .vmem S64x512 .bf16 := yrM.slice (Rect.unit (s := S416x512) ![64, 0] S64x512.size inb_S416x512_S64x512_64_0) (fun _ => rfl)
abbrev yr2 : Memref sig .tc .vmem S64x512 .bf16 := yrM.slice (Rect.unit (s := S416x512) ![128, 0] S64x512.size inb_S416x512_S64x512_128_0) (fun _ => rfl)
abbrev yr3 : Memref sig .tc .vmem S64x512 .bf16 := yrM.slice (Rect.unit (s := S416x512) ![192, 0] S64x512.size inb_S416x512_S64x512_192_0) (fun _ => rfl)
abbrev yr4 : Memref sig .tc .vmem S64x512 .bf16 := yrM.slice (Rect.unit (s := S416x512) ![256, 0] S64x512.size inb_S416x512_S64x512_256_0) (fun _ => rfl)
abbrev yr5 : Memref sig .tc .vmem S64x512 .bf16 := yrM.slice (Rect.unit (s := S416x512) ![320, 0] S64x512.size inb_S416x512_S64x512_320_0) (fun _ => rfl)
abbrev yr6 : Memref sig .tc .vmem S32x512 .bf16 := yrM.slice (Rect.unit (s := S416x512) ![384, 0] S32x512.size inb_S416x512_S32x512_384_0) (fun _ => rfl)

end Cert.KernelIdeal.AR

end
-- ==== Proof.Proto.lean ====
import proofs.«900705_g7700000000000706_dist_ar_v7x_xyz2x2x4_x_m1024_n512_bf16_1_alg».proof.Proof.Slices
import proofs.«900705_g7700000000000706_dist_ar_v7x_xyz2x2x4_x_m1024_n512_bf16_1_alg».proof.Proof.Gen.KernelIdeal.Skeleton
import proofs.«900705_g7700000000000706_dist_ar_v7x_xyz2x2x4_x_m1024_n512_bf16_1_alg».proof.Proof.Gen.KernelIdeal.Launch
import proofs.«900705_g7700000000000706_dist_ar_v7x_xyz2x2x4_x_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def st₀ : MemSt nD τ sig (Elt F) := ⟨m, fun _ => 0, ρ⟩

def px (c : Dev nD) : Dev nD := ⟨(4 * ((c.val / 4) % 2) + (c.val % 4) + 8) - 8 * (c.val / 8), by have := c.isLt; revert this; generalize c.val = v; decide +revert⟩
def py (c : Dev nD) : Dev nD := ⟨(8 * (c.val / 8) + (c.val % 4) + 4) - 4 * ((c.val / 4) % 2), by have := c.isLt; revert this; generalize c.val = v; decide +revert⟩

theorem px_px (c : Dev nD) : px (px c) = c := by revert c; decide
theorem py_py (c : Dev nD) : py (py c) = c := by revert c; decide

def swapX : Dev nD ≃ Dev nD := ⟨px, px, px_px, px_px⟩
def swapY : Dev nD ≃ Dev nD := ⟨py, py, py_py, py_py⟩

abbrev barS : Sem sig := (SemArray.scalar (sig.barrier 0 rfl) : Sems sig S_).sem
abbrev finS : Sem sig := cc0_scoped0.sem

abbrev barC (c : Dev nD) : GSem nD τ sig := ((c : Thread nD τ), .reg barS)
abbrev finC (c : Dev nD) : GSem nD τ sig := ((c : Thread nD τ), .reg finS)
abbrev dC (c : Dev nD) (i : DmaSem sig) : GSem nD τ sig := ((c : Thread nD τ), .dma i)

def heldAny {sp : Space} {s : Shape} {e : EltTy} (o : Dev nD) (M : Memref sig .tc sp s e) (q : PosShare TreeShare) : sProp 𝕄 :=
  iprop(∃ f : Buf (Elt F) (M.view.loc (o : Thread nD τ)), M.view.loc (o : Thread nD τ) ↦[M.view.set]{q} f)

def heldRead {sp : Space} {s : Shape} {e : EltTy} (o : Dev nD) (M : Memref sig .tc sp s e) (q : PosShare TreeShare) (v : s.Idx → Elt F e) : sProp 𝕄 :=
  iprop(∃ f : Buf (Elt F) (M.view.loc (o : Thread nD τ)), ⌜M.view.read (Elt F) f = v⌝ ∗ (M.view.loc (o : Thread nD τ) ↦[M.view.set]{q} f))

def Xa (o : Dev nD) : Buf (Elt F) (aM.view.loc (o : Thread nD τ)) := m ((o : Thread nD τ).loc main_arg0)
def Xv (o : Dev nD) : Buf (Elt F) (xvM.view.loc (o : Thread nD τ)) := m ((o : Thread nD τ).loc main_arg0)

def ldX64 (o : Dev nD) (off : Fin 2 → ℕ) (h : ∀ a, off a + S64x512.size a ≤ S1024x512.size a) : Vec F S64x512 .f32 :=
  xvM.view.readAt (Elt F) (Rect.unit (s := S1024x512) off S64x512.size h).toLoadRect (Xv m o)
def ldX32 (o : Dev nD) (off : Fin 2 → ℕ) (h : ∀ a, off a + S32x512.size a ≤ S1024x512.size a) : Vec F S32x512 .f32 :=
  xvM.view.readAt (Elt F) (Rect.unit (s := S1024x512) off S32x512.size h).toLoadRect (Xv m o)

def sx0 (o : Dev nD) : Vec F S64x512 .bf16 := k0_pay1 (ldX64 m o (k0_off1 o 0#32) (k0_off1_inb o 0))
def sx1 (o : Dev nD) : Vec F S64x512 .bf16 := k0_pay2 (ldX64 m o (k0_off1 o 64#32) (k0_off1_inb o 1))
def sx2 (o : Dev nD) : Vec F S64x512 .bf16 := k0_pay3 (ldX64 m o (k0_off1 o 128#32) (k0_off1_inb o 2))
def sx3 (o : Dev nD) : Vec F S64x512 .bf16 := k0_pay4 (ldX64 m o (k0_off1 o 192#32) (k0_off1_inb o 3))
def sx4 (o : Dev nD) : Vec F S64x512 .bf16 := k0_pay5 (ldX64 m o (k0_off1 o 256#32) (k0_off1_inb o 4))
def sx5 (o : Dev nD) : Vec F S64x512 .bf16 := k0_pay7 (k0_pay6 (ldX64 m o (k0_off1 o 320#32) (k0_off1_inb o 5)))
def sx6 (o : Dev nD) : Vec F S32x512 .bf16 := k0_pay8 (ldX32 m o (k0_off2 o 384#32) (k0_off2_inb o 0))
def sx7 (o : Dev nD) : Vec F S64x512 .bf16 := k0_pay9 (ldX64 m o (k0_off1 o 416#32) (k0_off1_inb o 6))
def sx8 (o : Dev nD) : Vec F S32x512 .bf16 := k0_pay10 (ldX32 m o (k0_off2 o 480#32) (k0_off2_inb o 1))
def sx9 (o : Dev nD) : Vec F S64x512 .bf16 := k0_pay11 (ldX64 m o (k0_off3 o) (k0_off3_inb o))
def sx10 (o : Dev nD) : Vec F S32x512 .bf16 := k0_pay13 (k0_pay12 (ldX32 m o (k0_off4 o) (k0_off4_inb o)))

def xrAll (o : Dev nD) : sProp 𝕄 :=
  iprop(heldAny o xr0 fullShare ∗ heldAny o xr1 fullShare ∗ heldAny o xr2 fullShare ∗ heldAny o xr3 fullShare ∗ heldAny o xr4 fullShare ∗ heldAny o xr5 fullShare
    ∗ heldAny o xr6 fullShare ∗ heldAny o xr7 fullShare ∗ heldAny o xr8 fullShare ∗ heldAny o xr9 fullShare ∗ heldAny o xr10 fullShare)
def yrAll (o : Dev nD) : sProp 𝕄 :=
  iprop(heldAny o yr0 fullShare ∗ heldAny o yr1 fullShare ∗ heldAny o yr2 fullShare ∗ heldAny o yr3 fullShare ∗ heldAny o yr4 fullShare ∗ heldAny o yr5 fullShare
    ∗ heldAny o yr6 fullShare)

abbrev N64 : ℕ := xr0.view.dmaCredit
abbrev N32 : ℕ := xr6.view.dmaCredit
abbrev NX : ℕ := xvM.view.dmaCredit
theorem N64_pos : 0 < N64 := View.dmaCredit_pos _ (by decide)
theorem N32_pos : 0 < N32 := View.dmaCredit_pos _ (by decide)
theorem NX_pos : 0 < NX := View.dmaCredit_pos _ (by decide)

def amtD (i : ℕ) : ℕ :=
  if i = 1 then NX else if i = 8 ∨ i = 10 ∨ i = 12 ∨ i = 19 ∨ i = 21 ∨ i = 23 ∨ i = 30 ∨ i = 37 then N32 else N64
theorem amtD_pos (i : ℕ) : 0 < amtD i := by
  unfold amtD; split; · exact NX_pos
  split; · exact N32_pos
  exact N64_pos

def payD (o : Dev nD) : ℕ → sProp 𝕄
  | 1 => iprop((xvM.view.loc (o : Thread nD τ) ↦[xvM.view.set]{fullShare} Xv m o) ∗ (aM.view.loc (o : Thread nD τ) ↦[aM.view.set]{fullShare} Xa m o))
  | 2 => heldAny o xs0 fullShare
  | 3 => heldAny o xs1 fullShare
  | 4 => heldAny o xs2 fullShare
  | 5 => heldAny o xs3 fullShare
  | 6 => heldAny o xs4 fullShare
  | 7 => heldAny o xs5 fullShare
  | 8 => heldAny o xs6 fullShare
  | 9 => heldAny o xs7 fullShare
  | 10 => heldAny o xs8 fullShare
  | 11 => heldAny o xs9 fullShare
  | 12 => heldAny o xs10 fullShare
  | 13 => heldRead o xr0 fullShare (sx0 m (px o))
  | 14 => heldRead o xr1 fullShare (sx1 m (px o))
  | 15 => heldRead o xr2 fullShare (sx2 m (px o))
  | 16 => heldRead o xr3 fullShare (sx3 m (px o))
  | 17 => heldRead o xr4 fullShare (sx4 m (px o))
  | 18 => heldRead o xr5 fullShare (sx5 m (px o))
  | 19 => heldRead o xr6 fullShare (sx6 m (px o))
  | 20 => heldRead o xr7 fullShare (sx7 m (px o))
  | 21 => heldRead o xr8 fullShare (sx8 m (px o))
  | 22 => heldRead o xr9 fullShare (sx9 m (px o))
  | 23 => heldRead o xr10 fullShare (sx10 m (px o))
  | 24 => heldAny o xr0 fullShare.left
  | 25 => heldAny o xr1 fullShare.left
  | 26 => heldAny o xr2 fullShare.left
  | 27 => heldAny o xr3 fullShare.left
  | 28 => heldAny o xr4 fullShare.left
  | 29 => heldAny o xr5 fullShare.left
  | 30 => heldAny o xr6 fullShare.left
  | 31 => heldRead o yr0 fullShare (sx0 m (px (py o)))
  | 32 => heldRead o yr1 fullShare (sx1 m (px (py o)))
  | 33 => heldRead o yr2 fullShare (sx2 m (px (py o)))
  | 34 => heldRead o yr3 fullShare (sx3 m (px (py o)))
  | 35 => heldRead o yr4 fullShare (sx4 m (px (py o)))
  | 36 => heldRead o yr5 fullShare (sx5 m (px (py o)))
  | 37 => heldRead o yr6 fullShare (sx6 m (px (py o)))
  | _ => iprop(emp)

def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma i => amtD i.val
  payload g _ d := match g.2 with
    | .reg s => if s = barS then (if d then yrAll (py g.1.1) else xrAll (px g.1.1)) else iprop(emp)
    | .dma i => payD m g.1.1 i.val
  amount_pos g _ _ _ := by
    cases g.2 with
    | reg s => exact Nat.one_pos
    | dma i => exact amtD_pos _

instance heldAny_storable {sp : Space} {s : Shape} {e : EltTy} (o : Dev nD) (M : Memref sig .tc sp s e) (q : PosShare TreeShare) :
    BI.Storable (upEmb : UEmb _ 𝕄) (heldAny (F := F) o M q) := by unfold heldAny; infer_instance
instance heldRead_storable {sp : Space} {s : Shape} {e : EltTy} (o : Dev nD) (M : Memref sig .tc sp s e) (q : PosShare TreeShare) (v : s.Idx → Elt F e) :
    BI.Storable (upEmb : UEmb _ 𝕄) (heldRead (F := F) o M q v) := by unfold heldRead; infer_instance
instance xrAll_storable (o : Dev nD) : BI.Storable (upEmb : UEmb _ 𝕄) (xrAll (F := F) o) := by unfold xrAll; infer_instance
instance yrAll_storable (o : Dev nD) : BI.Storable (upEmb : UEmb _ 𝕄) (yrAll (F := F) o) := by unfold yrAll; infer_instance
instance payD_storable (o : Dev nD) (i : ℕ) : BI.Storable (upEmb : UEmb _ 𝕄) (payD (F := F) m o i) := by
  unfold payD; split <;> infer_instance

instance Rd_payload_storable (g : GSem nD τ sig) (r : ℕ) (d : Bool) : BI.Storable (upEmb : UEmb _ 𝕄) ((Rd (F := F) m).payload g r d) := by
  obtain ⟨t, s⟩ := g
  cases s with
  | reg s =>
    show BI.Storable upEmb (if s = barS then (if d then yrAll (py t.1) else xrAll (px t.1)) else iprop(emp))
    (repeat' split) <;> infer_instance
  | dma i => exact payD_storable m t.1 i.val

section Sched
variable (c : Dev nD)

theorem duties_reg (s : Sem sig) : (Rd (F := F) m).duties ((c : Thread nD τ), .reg s) 0 = Finset.univ := by dsimp only [Rd]; exact if_pos ⟨rfl, rfl⟩
theorem duties_dma (i : DmaSem sig) : (Rd (F := F) m).duties (dC c i) 0 = {false} := by dsimp only [Rd]; exact if_pos ⟨rfl, rfl⟩
theorem duties_later (g : GSem nD τ sig) : ∀ r, 1 ≤ r → (Rd (F := F) m).duties g r = ∅ :=
  fun r hr => by dsimp only [Rd]; rw [if_neg fun h => by omega]
theorem amount_reg (s : Sem sig) (d : Bool) : (Rd (F := F) m).amount ((c : Thread nD τ), .reg s) 0 d = 1 := rfl
theorem amount_dma (i : DmaSem sig) (d : Bool) : (Rd (F := F) m).amount (dC c i) 0 d = amtD i.val := rfl
theorem expect_reg (s : Sem sig) : (Rd (F := F) m).expect ((c : Thread nD τ), .reg s) 0 = 2 := by
  unfold Schedule.expect Schedule.amountOf
  rw [duties_reg, Finset.sum_congr rfl fun d _ => amount_reg m c s d, Finset.sum_const, Finset.card_univ, Fintype.card_bool, smul_eq_mul]
theorem expect_dma (i : DmaSem sig) : (Rd (F := F) m).expect (dC c i) 0 = amtD i.val := by
  unfold Schedule.expect Schedule.amountOf; rw [duties_dma, Finset.sum_singleton, amount_dma]
theorem payload_dma (i : DmaSem sig) (d : Bool) : (Rd (F := F) m).payload (dC c i) 0 d = payD m c i.val := rfl
theorem payload_bar (d : Bool) : (Rd (F := F) m).payload (barC c) 0 d = if d then yrAll (py c) else xrAll (px c) := by
  dsimp only [Rd]; exact if_pos rfl
theorem payload_fin (d : Bool) : (Rd (F := F) m).payload (finC c) 0 d = iprop(emp) := by
  dsimp only [Rd]; exact if_neg (by decide)
theorem rest_dma (i : DmaSem sig) :
    bigSep ((Rd (F := F) m).duties (dC c i) 0 \ ∅) (fun d => (Rd (F := F) m).payload (dC c i) 0 d) = payD m c i.val := by
  rw [Finset.sdiff_empty, duties_dma, bigSep_singleton, payload_dma]
theorem rest_bar :
    bigSep ((Rd (F := F) m).duties (barC c) 0 \ ∅) (fun d => (Rd (F := F) m).payload (barC c) 0 d) = iprop(xrAll (px c) ∗ yrAll (py c)) := by
  rw [Finset.sdiff_empty, duties_reg, bigSep_univ_eq_bigSepL [false, true] (by decide) (by decide), bigSepL_cons_cons, bigSepL_singleton,
    payload_bar, payload_bar]
  rfl

end Sched

abbrev dI (n : ℕ) : DmaSem sig := ⟨n % 38, Nat.mod_lt _ (by decide)⟩

def tY (c : Dev nD) (k : ℕ) : CellTallies nD τ sig Unit := tallyAt (dC (py c) (dI (31 + k))) () (amtD (31 + k))
def tX (c : Dev nD) (k : ℕ) : CellTallies nD τ sig Unit := tallyAt (dC (px c) (dI (13 + k))) () (amtD (13 + k))

def Ofin (c : Dev nD) : CellTallies nD τ sig Unit := tallyAt (finC (py c)) () 1 + tallyAt (finC (px c)) () 1
def OyUp (c : Dev nD) : ℕ → CellTallies nD τ sig Unit
  | 0 => Ofin c
  | n + 1 => OyUp c n + tY c (6 - n)
def OxUp (c : Dev nD) : ℕ → CellTallies nD τ sig Unit
  | 0 => OyUp c 7
  | n + 1 => OxUp c n + tX c (10 - n)
def O₁ (c : Dev nD) : CellTallies nD τ sig Unit := OxUp c 11 + tallyAt (barC (py c)) () 1
def O₀ (c : Dev nD) : CellTallies nD τ sig Unit := O₁ c + tallyAt (barC (px c)) () 1

def L (g : GSem nD τ sig) : Finset Unit := if g.1.2 = .tc then {()} else ∅
def lv (g : GSem nD τ sig) (_ : Unit) : ℕ :=
  match g.2 with
  | .reg s => if s = barS then 1 else 4
  | .dma i => if 13 ≤ i.val ∧ i.val ≤ 23 then 2 else if 31 ≤ i.val then 3 else 0

theorem L_of_ne (g : GSem nD τ sig) (h : g.1.2 ≠ .tc) : L g = ∅ := if_neg h
theorem L_tc (c : Dev nD) (sm : SemLoc sig) : L ((c : Thread nD τ), sm) = {()} := if_pos rfl

theorem Ofin_pos {c : Dev nD} {g : GSem nD τ sig} {u : Unit} (h : 0 < Ofin c g u) : g.1.2 = .tc ∧ 4 ≤ lv g () := by
  unfold Ofin at h
  rcases Pipeline.add_pos_cases h with h | h <;> (obtain ⟨rfl, -⟩ := Pipeline.tallyAt_pos h; exact ⟨rfl, show (4 : ℕ) ≤ (if finS = barS then 1 else 4) from by decide⟩)

theorem OyUp_pos {c : Dev nD} {g : GSem nD τ sig} {u : Unit} : ∀ n, 0 < OyUp c n g u → g.1.2 = .tc ∧ 3 ≤ lv g ()
  | 0, h => ⟨(Ofin_pos h).1, by have := (Ofin_pos h).2; omega⟩
  | n + 1, h => by
    rcases Pipeline.add_pos_cases (show 0 < (OyUp c n + tY c (6 - n)) g u from h) with h | h
    · exact OyUp_pos n h
    · unfold tY at h; obtain ⟨rfl, -⟩ := Pipeline.tallyAt_pos h
      refine ⟨rfl, ?_⟩
      show 3 ≤ (if 13 ≤ (31 + (6 - n)) % 38 ∧ (31 + (6 - n)) % 38 ≤ 23 then 2 else if 31 ≤ (31 + (6 - n)) % 38 then 3 else 0)
      rw [if_neg (by omega), if_pos (by omega)]

theorem OxUp_pos {c : Dev nD} {g : GSem nD τ sig} {u : Unit} : ∀ n, 0 < OxUp c n g u → g.1.2 = .tc ∧ 2 ≤ lv g ()
  | 0, h => ⟨(OyUp_pos 7 h).1, by have := (OyUp_pos 7 h).2; omega⟩
  | n + 1, h => by
    rcases Pipeline.add_pos_cases (show 0 < (OxUp c n + tX c (10 - n)) g u from h) with h | h
    · exact OxUp_pos n h
    · unfold tX at h; obtain ⟨rfl, -⟩ := Pipeline.tallyAt_pos h
      refine ⟨rfl, ?_⟩
      show 2 ≤ (if 13 ≤ (13 + (10 - n)) % 38 ∧ (13 + (10 - n)) % 38 ≤ 23 then 2 else if 31 ≤ (13 + (10 - n)) % 38 then 3 else 0)
      rw [if_pos (by omega)]

theorem O₀_pos {c : Dev nD} {g : GSem nD τ sig} {u : Unit} (h : 0 < O₀ c g u) : g.1.2 = .tc ∧ 1 ≤ lv g () := by
  unfold O₀ O₁ at h
  rcases Pipeline.add_pos_cases h with h | h
  · rcases Pipeline.add_pos_cases h with h | h
    · exact ⟨(OxUp_pos 11 h).1, by have := (OxUp_pos 11 h).2; omega⟩
    · obtain ⟨rfl, -⟩ := Pipeline.tallyAt_pos h; exact ⟨rfl, show (1 : ℕ) ≤ (if barS = barS then 1 else 4) from by decide⟩
  · obtain ⟨rfl, -⟩ := Pipeline.tallyAt_pos h; exact ⟨rfl, show (1 : ℕ) ≤ (if barS = barS then 1 else 4) from by decide⟩

theorem mayWait_of (c : Dev nD) (s : SemLoc sig) (O : CellTallies nD τ sig Unit) (n : ℕ) (hs : lv ((c : Thread nD τ), s) () < n)
    (h : ∀ (g : GSem nD τ sig) (u : Unit), 0 < O g u → g.1.2 = .tc ∧ n ≤ lv g ()) :
    (levAts L lv : sProp 𝕄) ⊢ MayWait (c : Thread nD τ) s () O :=
  Pipeline.mayWait_of_levAts (by rw [L_tc]; exact Finset.mem_singleton_self _)
    (fun g i hg => ⟨by unfold L; rw [if_pos (h g i hg).1]; exact Finset.mem_singleton_self _, lt_of_lt_of_le hs (h g i hg).2⟩)

abbrev csem (j : Fin 39) : SemLoc sig := if j.val = 0 then .reg barS else if j.val = 1 then .reg finS else .dma (dI (j.val - 1))
abbrev osem (j : Fin 38) : SemLoc sig := csem ⟨j.val + 1, by omega⟩
abbrev kcell (ck : Dev nD × Fin 39) : GSem nD τ sig := ((ck.1 : Thread nD τ), csem ck.2)

def records (K : Dev nD × Fin 39 → ℕ) : sProp 𝕄 :=
  iprop((bigSep Finset.univ fun ck : Dev nD × Fin 39 => cellInv ER (Rd m) (K ck) (kcell ck))
    ∗ bigSep Finset.univ fun ck : Dev nD × Fin 39 => reached ER (kcell ck) 0)

instance records_persistent (K : Dev nD × Fin 39 → ℕ) : BI.Persistent (records (F := F) m K) := by unfold records; infer_instance

theorem inv_at0 (K : Dev nD × Fin 39 → ℕ) (ck : Dev nD × Fin 39) :
    (bigSep Finset.univ fun ck : Dev nD × Fin 39 => (cellInv ER (Rd (F := F) m) (K ck) (kcell ck) : sProp 𝕄)) ⊢ cellInv ER (Rd m) (K ck) (kcell ck) :=
  bigSep_elim (Finset.mem_univ ck)
theorem reached_at0 (ck : Dev nD × Fin 39) :
    (bigSep Finset.univ fun ck : Dev nD × Fin 39 => (reached ER (kcell ck) 0 : sProp 𝕄)) ⊢ reached ER (kcell ck) 0 :=
  bigSep_elim (Finset.mem_univ ck)
theorem inv_at (K : Dev nD × Fin 39 → ℕ) (ck : Dev nD × Fin 39) : records (F := F) m K ⊢ cellInv ER (Rd m) (K ck) (kcell ck) := by
  unfold records; iintro ⟨H, -⟩; iapply (inv_at0 m K ck); iexact H
theorem reached_at (K : Dev nD × Fin 39 → ℕ) (ck : Dev nD × Fin 39) : records (F := F) m K ⊢ reached ER (kcell ck) 0 := by
  unfold records; iintro ⟨-, H⟩; iapply (reached_at0 (F := F) ck); iexact H

def ownIdx : List ℕ := [1, 2, 3, 4, 5, 6, 7, 8, 9, 10, 11, 12, 24, 25, 26, 27, 28, 29, 30]
def xrIdx : List ℕ := [13, 14, 15, 16, 17, 18, 19, 20, 21, 22, 23]
def yrIdx : List ℕ := [31, 32, 33, 34, 35, 36, 37]
def dmaIdx : List ℕ := [1, 2, 3, 4, 5, 6, 7, 8, 9, 10, 11, 12, 13, 14, 15, 16, 17, 18, 19, 20, 21, 22, 23, 24, 25, 26, 27, 28, 29, 30, 31, 32, 33, 34, 35, 36, 37]

def atAll (c : Dev nD) : sProp 𝕄 :=
  iprop(atPos ER (barC c) 0 ∅ 0 ∗ atPos ER (finC c) 0 ∅ 0 ∗ bigSepL dmaIdx (fun i => atPos ER (dC c (dI i)) 0 ∅ 0))

def payToks (c : Dev nD) : sProp 𝕄 :=
  iprop(dutyTok ER (barC (px c)) 0 false ∗ dutyTok ER (barC (py c)) 0 true ∗ dutyTok ER (finC (px c)) 0 false ∗ dutyTok ER (finC (py c)) 0 true
    ∗ bigSepL ownIdx (fun i => dutyTok ER (dC c (dI i)) 0 false)
    ∗ bigSepL xrIdx (fun i => dutyTok ER (dC (px c) (dI i)) 0 false)
    ∗ bigSepL yrIdx (fun i => dutyTok ER (dC (py c) (dI i)) 0 false))

def creds (c : Dev nD) : sProp 𝕄 :=
  iprop(cred (tallyAt (barC c) () 2) ∗ cred (tallyAt (finC c) () 2)
    ∗ bigSepL xrIdx (fun i => cred (tallyAt (dC c (dI i)) () (amtD i)))
    ∗ bigSepL yrIdx (fun i => cred (tallyAt (dC c (dI i)) () (amtD i))))

def ghost (K : Dev nD × Fin 39 → ℕ) (c : Dev nD) : sProp 𝕄 := iprop(records m K ∗ atAll c ∗ payToks c)

def start (c : Dev nD) : sProp 𝕄 := iprop((∃ K, ghost m K c) ∗ creds c ∗ levAts L lv)

def w64 (f : (cc0_stg0_0 : Ref sig .tc).ty.Contents (Elt F)) (off : Fin 2 → ℕ) (h : ∀ a, off a + S64x512.size a ≤ S1024x512.size a) (v : Vec F S64x512 .bf16) :
    (cc0_stg0_0 : Ref sig .tc).ty.Contents (Elt F) :=
  (oM.access (Rect.unit (s := S1024x512) off S64x512.size h)).write (Elt F) f v Finset.univ
def w32 (f : (cc0_stg0_0 : Ref sig .tc).ty.Contents (Elt F)) (off : Fin 2 → ℕ) (h : ∀ a, off a + S32x512.size a ≤ S1024x512.size a) (v : Vec F S32x512 .bf16) :
    (cc0_stg0_0 : Ref sig .tc).ty.Contents (Elt F) :=
  (oM.access (Rect.unit (s := S1024x512) off S32x512.size h)).write (Elt F) f v Finset.univ

def out6 (o : Dev nD) (d : (cc0_stg0_0 : Ref sig .tc).ty.Contents (Elt F)) : (cc0_stg0_0 : Ref sig .tc).ty.Contents (Elt F) :=
  let f := w64 d (k0_off1 o 0#32) (k0_off1_inb o 0) (k0_pay14 (ldX64 m o (k0_off1 o 0#32) (k0_off1_inb o 0)) (sx0 m (px o)))
  let f := w64 f (k0_off1 o 64#32) (k0_off1_inb o 1) (k0_pay15 (ldX64 m o (k0_off1 o 64#32) (k0_off1_inb o 1)) (sx1 m (px o)))
  let f := w64 f (k0_off1 o 128#32) (k0_off1_inb o 2) (k0_pay16 (ldX64 m o (k0_off1 o 128#32) (k0_off1_inb o 2)) (sx2 m (px o)))
  let f := w64 f (k0_off1 o 192#32) (k0_off1_inb o 3) (k0_pay17 (ldX64 m o (k0_off1 o 192#32) (k0_off1_inb o 3)) (sx3 m (px o)))
  let f := w64 f (k0_off1 o 256#32) (k0_off1_inb o 4) (k0_pay18 (ldX64 m o (k0_off1 o 256#32) (k0_off1_inb o 4)) (sx4 m (px o)))
  w64 f (k0_off1 o 320#32) (k0_off1_inb o 5) (k0_pay19 (ldX64 m o (k0_off1 o 320#32) (k0_off1_inb o 5)) (sx5 m (px o)))

def outA (o : Dev nD) (d : (cc0_stg0_0 : Ref sig .tc).ty.Contents (Elt F)) : (cc0_stg0_0 : Ref sig .tc).ty.Contents (Elt F) :=
  let f := out6 m o d
  let f := w32 f (k0_off2 o 384#32) (k0_off2_inb o 0) (k0_pay20 (ldX32 m o (k0_off2 o 384#32) (k0_off2_inb o 0)) (sx6 m (px o)))
  let f := w64 f (k0_off1 o 416#32) (k0_off1_inb o 6) (k0_pay21 (ldX64 m o (k0_off1 o 416#32) (k0_off1_inb o 6)) (sx7 m (px o)))
  let f := w32 f (k0_off2 o 480#32) (k0_off2_inb o 1) (k0_pay22 (ldX32 m o (k0_off2 o 480#32) (k0_off2_inb o 1)) (sx8 m (px o)))
  let f := w64 f (k0_off3 o) (k0_off3_inb o) (k0_pay23 (ldX64 m o (k0_off3 o) (k0_off3_inb o)) (sx9 m (px o)))
  w32 f (k0_off4 o) (k0_off4_inb o) (k0_pay24 (ldX32 m o (k0_off4 o) (k0_off4_inb o)) (sx10 m (px o)))

def outC (o : Dev nD) (d : (cc0_stg0_0 : Ref sig .tc).ty.Contents (Elt F)) : (cc0_stg0_0 : Ref sig .tc).ty.Contents (Elt F) :=
  let f := outA m o d
  let f := w64 f (k0_off5 o 0#32) (k0_off5_inb o 0) (k0_pay25 (ldX64 m o (k0_off5 o 0#32) (k0_off5_inb o 0)) (sx0 m (px (py o))))
  let f := w64 f (k0_off5 o 64#32) (k0_off5_inb o 1) (k0_pay26 (ldX64 m o (k0_off5 o 64#32) (k0_off5_inb o 1)) (sx1 m (px (py o))))
  let f := w64 f (k0_off5 o 128#32) (k0_off5_inb o 2) (k0_pay27 (ldX64 m o (k0_off5 o 128#32) (k0_off5_inb o 2)) (sx2 m (px (py o))))
  let f := w64 f (k0_off5 o 192#32) (k0_off5_inb o 3) (k0_pay28 (ldX64 m o (k0_off5 o 192#32) (k0_off5_inb o 3)) (sx3 m (px (py o))))
  let f := w64 f (k0_off5 o 256#32) (k0_off5_inb o 4) (k0_pay29 (ldX64 m o (k0_off5 o 256#32) (k0_off5_inb o 4)) (sx4 m (px (py o))))
  let f := w64 f (k0_off5 o 320#32) (k0_off5_inb o 5) (k0_pay30 (ldX64 m o (k0_off5 o 320#32) (k0_off5_inb o 5)) (sx5 m (px (py o))))
  w32 f (k0_off6 o) (k0_off6_inb o) (k0_pay31 (ldX32 m o (k0_off6 o) (k0_off6_inb o)) (sx6 m (px (py o))))

def junk : (cc0_stg0_0 : Ref sig .tc).ty.Contents (Elt F) := fun _ => Classical.arbitrary _

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 :=
  iprop(start m c ∗ (((c : Thread nD τ).loc main_arg0) ↦{fullShare} m ((c : Thread nD τ).loc main_arg0)) ∗ Pipeline.scopedRest cfg0.spec c)
def Φ₁ (c : Dev nD) : sProp 𝕄 :=
  iprop((((c : Thread nD τ).loc main_arg0) ↦{fullShare} m ((c : Thread nD τ).loc main_arg0))
    ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => outC m c junk
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m c ∗ (dats m ρ 0 c).owesAt () t₀.succ ∗ stg c cc0_stg0_0 (outC m c junk))

end Cert.KernelIdeal.AR

end
-- ==== Proof.Launch.lean ====
import proofs.«900705_g7700000000000706_dist_ar_v7x_xyz2x2x4_x_m1024_n512_bf16_1_alg».proof.Proof.Proto

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats (F := F) m ρ 0 c).share w = fullShare := by unfold Dat.share; split <;> rfl

theorem csem_injective : Function.Injective csem := by decide

theorem kcell_injective : Function.Injective (kcell : Dev nD × Fin 39 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def xCells : Finset (GSem nD τ sig) := Finset.univ.map ⟨kcell, kcell_injective⟩

abbrev TI : Type := Fin 4 ⊕ (Fin 19 ⊕ (Fin 11 ⊕ Fin 7))

def tsd : TI → SemLoc sig × Bool
  | .inl k => (if k.val < 2 then .reg barS else .reg finS, k.val % 2 = 1)
  | .inr (.inl k) => (.dma (dI (ownIdx.getD k.val 0)), false)
  | .inr (.inr (.inl k)) => (.dma (dI (xrIdx.getD k.val 0)), false)
  | .inr (.inr (.inr k)) => (.dma (dI (yrIdx.getD k.val 0)), false)

theorem tsd_injective : Function.Injective tsd := by decide

abbrev tokOf (cj : Dev nD × TI) : GSem nD τ sig × ℕ × Bool := (((cj.1 : Thread nD τ), (tsd cj.2).1), 0, (tsd cj.2).2)

theorem tokOf_injective : Function.Injective (tokOf : Dev nD × TI → GSem nD τ sig × ℕ × Bool) := by
  rintro ⟨c, j⟩ ⟨c', j'⟩ h
  have h1 : c = c' := congrArg (fun x : GSem nD τ sig × ℕ × Bool => x.1.1.1) h
  subst h1
  have h2 : tsd j = tsd j' := Prod.ext (congrArg (fun x : GSem nD τ sig × ℕ × Bool => x.1.2) h) (congrArg (fun x : GSem nD τ sig × ℕ × Bool => x.2.2) h)
  rw [tsd_injective h2]

def xToks : Finset (GSem nD τ sig × ℕ × Bool) := Finset.univ.map ⟨tokOf, tokOf_injective⟩

def u₀ : UU :=
  (initOf (Pipeline.cells cfgs cellOf_inj) (Pipeline.launchToks cfgs cellOf_inj), initOf xCells xToks)

def toks (c : Dev nD) : sProp 𝕄 :=
  iprop((dutyTok ER (barC c) 0 false ∗ dutyTok ER (barC c) 0 true ∗ dutyTok ER (finC c) 0 false ∗ dutyTok ER (finC c) 0 true)
    ∗ bigSepL ownIdx (fun i => dutyTok ER (dC c (dI i)) 0 false)
    ∗ bigSepL xrIdx (fun i => dutyTok ER (dC c (dI i)) 0 false)
    ∗ bigSepL yrIdx (fun i => dutyTok ER (dC c (dI i)) 0 false))

omit [FloatOps F] in
theorem toks_eq (c : Dev nD) :
    (bigSep Finset.univ fun j : TI => (dutyTok ER (tokOf (c, j)).1 (tokOf (c, j)).2.1 (tokOf (c, j)).2.2 : sProp 𝕄)) = toks c := by
  rw [bigSep_univ_sum, bigSep_univ_sum, bigSep_univ_sum,
    bigSep_univ_eq_bigSepL [(0 : Fin 4), 1, 2, 3] (by decide) (by decide),
    bigSep_univ_eq_bigSepL [(0 : Fin 19), 1, 2, 3, 4, 5, 6, 7, 8, 9, 10, 11, 12, 13, 14, 15, 16, 17, 18] (by decide) (by decide),
    bigSep_univ_eq_bigSepL [(0 : Fin 11), 1, 2, 3, 4, 5, 6, 7, 8, 9, 10] (by decide) (by decide),
    bigSep_univ_eq_bigSepL [(0 : Fin 7), 1, 2, 3, 4, 5, 6] (by decide) (by decide)]
  unfold toks
  rfl

def G (c : Dev nD) : sProp 𝕄 :=
  iprop((bigSep Finset.univ fun k : Fin 39 => roundState ER (Rd m) (kcell (c, k)) 0)
    ∗ (bigSep Finset.univ fun k : Fin 39 => iprop(atPos ER (kcell (c, k)) 0 ∅ 0 ∗ reached ER (kcell (c, k)) 0)) ∗ toks c)

def G' (c : Dev nD) : sProp 𝕄 := iprop(∃ K, ghost m K c)

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 39 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => toks_eq c
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_fin_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp), bigSep_map]
  rfl

omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 39 => semVal (kcell (c, k)) 0 : sProp 𝕄) := by
  rw [unscopedSems0_eq, bigSep_fin_succ]
  unfold Pipeline.ownSems0
  iintro ⟨Ho, Hb⟩
  isplitl [Hb]; · iexact Hb
  iexact Ho

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 39 => iprop(∃ κ : ℕ, cellInv ER (Rd m) κ (kcell (c, k))))
          ∗ (bigSep Finset.univ fun k : Fin 39 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 39 => semVal (kcell (c, k)) 0) ∗ bigSep Finset.univ fun k : Fin 39 => roundState ER (Rd m) (kcell (c, k)) 0)
      ⊢ (|={Set.univ}=> bigSep Finset.univ fun k : Fin 39 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def linear (c : Dev nD) : sProp 𝕄 :=
  iprop((bigSep Finset.univ fun k : Fin 39 => atPos ER (kcell (c, k)) 0 ∅ 0) ∗ payToks c)

omit [FloatOps F] in
theorem atAll_eq (c : Dev nD) : (bigSep Finset.univ fun k : Fin 39 => (atPos ER (kcell (c, k)) 0 ∅ 0 : sProp 𝕄)) = atAll c := by
  rw [bigSep_univ_eq_bigSepL [(0 : Fin 39), 1, 2, 3, 4, 5, 6, 7, 8, 9, 10, 11, 12, 13, 14, 15, 16, 17, 18, 19, 20, 21, 22, 23, 24, 25, 26, 27, 28, 29, 30, 31, 32, 33, 34, 35, 36, 37, 38]
    (by decide) (by decide)]
  rfl

theorem ghost_intro (K : Dev nD × Fin 39 → ℕ) (c : Dev nD) : iprop(records m K ∗ linear c) ⊢ G' m c := by
  unfold linear G' ghost
  rw [atAll_eq]
  iintro ⟨#HR, Ha, Ht⟩
  iexists K
  isplitr; · iexact HR
  isplitl [Ha]; · iexact Ha
  iexact Ht

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv swapX (fun c : Dev nD => (dutyTok ER (barC c) 0 false : sProp 𝕄)),
    bigSep_univ_equiv swapY (fun c : Dev nD => (dutyTok ER (barC c) 0 true : sProp 𝕄)),
    bigSep_univ_equiv swapX (fun c : Dev nD => (dutyTok ER (finC c) 0 false : sProp 𝕄)),
    bigSep_univ_equiv swapY (fun c : Dev nD => (dutyTok ER (finC c) 0 true : sProp 𝕄)),
    bigSep_univ_equiv swapX (fun c : Dev nD => (bigSepL xrIdx (fun i => dutyTok ER (dC c (dI i)) 0 false) : sProp 𝕄)),
    bigSep_univ_equiv swapY (fun c : Dev nD => (bigSepL yrIdx (fun i => dutyTok ER (dC c (dI i)) 0 false) : sProp 𝕄))]
  iintro ⟨⟨H1, H2, H3, H4⟩, H5, H6, H7⟩
  isplitl [H1]; · iexact H1
  isplitl [H2]; · iexact H2
  isplitl [H3]; · iexact H3
  isplitl [H4]; · iexact H4
  isplitl [H5]; · iexact H5
  isplitl [H6]; · iexact H6
  iexact H7

theorem regroup :
    (bigSep Finset.univ fun c : Dev nD => iprop((bigSep Finset.univ fun k : Fin 39 => iprop(∃ κ : ℕ, cellInv ER (Rd m) κ (kcell (c, k))))
          ∗ (bigSep Finset.univ fun k : Fin 39 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 39 => iprop(∃ κ : ℕ, cellInv ER (Rd m) κ (kcell ck))),
    bigSep_congr (s := Finset.univ) (fun (c : Dev nD) _ => bigSep_sep' Finset.univ (fun k : Fin 39 => (atPos ER (kcell (c, k)) 0 ∅ 0 : sProp 𝕄)) (fun k => reached ER (kcell (c, k)) 0)),
    bigSep_sep', ← bigSep_univ_prod (fun ck : Dev nD × Fin 39 => (reached ER (kcell ck) 0 : sProp 𝕄))]
  iintro ⟨HI, ⟨Hat, #HR⟩, Htok⟩
  ihave HK := (BI.bigSep_exists_pi Finset.univ (fun (ck : Dev nD × Fin 39) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => bigSep Finset.univ fun k : Fin 39 => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

omit [FloatOps F] in
theorem lc_bx (c : Dev nD) : (Pipeline.launchCred (fun d => tallyAt (barC (px d)) () 1) c : sProp 𝕄) ⊢ cred (tallyAt (barC c) () 1) :=
  Pipeline.launchCred_tallyAt (.reg barS) px px px_px px_px () 1 c
omit [FloatOps F] in
theorem lc_by (c : Dev nD) : (Pipeline.launchCred (fun d => tallyAt (barC (py d)) () 1) c : sProp 𝕄) ⊢ cred (tallyAt (barC c) () 1) :=
  Pipeline.launchCred_tallyAt (.reg barS) py py py_py py_py () 1 c
omit [FloatOps F] in
theorem lc_fx (c : Dev nD) : (Pipeline.launchCred (fun d => tallyAt (finC (px d)) () 1) c : sProp 𝕄) ⊢ cred (tallyAt (finC c) () 1) :=
  Pipeline.launchCred_tallyAt (.reg finS) px px px_px px_px () 1 c
omit [FloatOps F] in
theorem lc_fy (c : Dev nD) : (Pipeline.launchCred (fun d => tallyAt (finC (py d)) () 1) c : sProp 𝕄) ⊢ cred (tallyAt (finC c) () 1) :=
  Pipeline.launchCred_tallyAt (.reg finS) py py py_py py_py () 1 c
omit [FloatOps F] in
theorem lc_tX (k : ℕ) (c : Dev nD) : (Pipeline.launchCred (fun d => tX d k) c : sProp 𝕄) ⊢ cred (tallyAt (dC c (dI (13 + k))) () (amtD (13 + k))) :=
  Pipeline.launchCred_tallyAt (.dma (dI (13 + k))) px px px_px px_px () (amtD (13 + k)) c
omit [FloatOps F] in
theorem lc_tY (k : ℕ) (c : Dev nD) : (Pipeline.launchCred (fun d => tY d k) c : sProp 𝕄) ⊢ cred (tallyAt (dC c (dI (31 + k))) () (amtD (31 + k))) :=
  Pipeline.launchCred_tallyAt (.dma (dI (31 + k))) py py py_py py_py () (amtD (31 + k)) c

omit [FloatOps F] in
theorem lc_OxUp (n : ℕ) (c : Dev nD) :
    (Pipeline.launchCred (fun d => OxUp d (n + 1)) c : sProp 𝕄) = iprop(Pipeline.launchCred (fun d => OxUp d n) c ∗ Pipeline.launchCred (fun d => tX d (10 - n)) c) :=
  Pipeline.launchCred_add (fun d => OxUp d n) (fun d => tX d (10 - n)) c
omit [FloatOps F] in
theorem lc_OyUp (n : ℕ) (c : Dev nD) :
    (Pipeline.launchCred (fun d => OyUp d (n + 1)) c : sProp 𝕄) = iprop(Pipeline.launchCred (fun d => OyUp d n) c ∗ Pipeline.launchCred (fun d => tY d (6 - n)) c) :=
  Pipeline.launchCred_add (fun d => OyUp d n) (fun d => tY d (6 - n)) c

omit [FloatOps F] in
theorem cred_two (g : GSem nD τ sig) : iprop(cred (tallyAt g () 1) ∗ cred (tallyAt g () 1)) ⊢ (cred (tallyAt g () 2) : sProp 𝕄) := by
  have h : (tallyAt g () 2 : CellTallies nD τ sig Unit) = tallyAt g () 1 + tallyAt g () 1 := (tallyAt_add g () 1 1).symm
  rw [h]; exact (cred_add _ _).2

omit [FloatOps F] in
theorem xr_chain (Φ : ℕ → sProp 𝕄) :
    bigSepL xrIdx Φ = iprop(Φ 13 ∗ Φ 14 ∗ Φ 15 ∗ Φ 16 ∗ Φ 17 ∗ Φ 18 ∗ Φ 19 ∗ Φ 20 ∗ Φ 21 ∗ Φ 22 ∗ Φ 23) := rfl
omit [FloatOps F] in
theorem yr_chain (Φ : ℕ → sProp 𝕄) : bigSepL yrIdx Φ = iprop(Φ 31 ∗ Φ 32 ∗ Φ 33 ∗ Φ 34 ∗ Φ 35 ∗ Φ 36 ∗ Φ 37) := rfl

omit [FloatOps F] in
theorem creds_intro (c : Dev nD) : (Pipeline.launchCred O₀ c : sProp 𝕄) ⊢ creds c := by
  have e0 : (Pipeline.launchCred O₀ c : sProp 𝕄) = iprop(Pipeline.launchCred O₁ c ∗ Pipeline.launchCred (fun d => tallyAt (barC (px d)) () 1) c) :=
    Pipeline.launchCred_add O₁ (fun d => tallyAt (barC (px d)) () 1) c
  have e1 : (Pipeline.launchCred O₁ c : sProp 𝕄) = iprop(Pipeline.launchCred (fun d => OxUp d 11) c ∗ Pipeline.launchCred (fun d => tallyAt (barC (py d)) () 1) c) :=
    Pipeline.launchCred_add (fun d => OxUp d 11) (fun d => tallyAt (barC (py d)) () 1) c
  have e2 : (Pipeline.launchCred (fun d => OxUp d 0) c : sProp 𝕄) = Pipeline.launchCred (fun d => OyUp d 7) c := rfl
  have e3 : (Pipeline.launchCred (fun d => OyUp d 0) c : sProp 𝕄)
      = iprop(Pipeline.launchCred (fun d => tallyAt (finC (py d)) () 1) c ∗ Pipeline.launchCred (fun d => tallyAt (finC (px d)) () 1) c) :=
    Pipeline.launchCred_add (fun d => tallyAt (finC (py d)) () 1) (fun d => tallyAt (finC (px d)) () 1) c
  rw [e0, e1, lc_OxUp 10, lc_OxUp 9, lc_OxUp 8, lc_OxUp 7, lc_OxUp 6, lc_OxUp 5, lc_OxUp 4, lc_OxUp 3, lc_OxUp 2, lc_OxUp 1, lc_OxUp 0, e2,
    lc_OyUp 6, lc_OyUp 5, lc_OyUp 4, lc_OyUp 3, lc_OyUp 2, lc_OyUp 1, lc_OyUp 0, e3]
  unfold creds
  rw [xr_chain, yr_chain]
  iintro ⟨⟨⟨⟨⟨⟨⟨⟨⟨⟨⟨⟨⟨⟨⟨⟨⟨⟨⟨⟨⟨Hfy, Hfx⟩, Y6⟩, Y5⟩, Y4⟩, Y3⟩, Y2⟩, Y1⟩, Y0⟩, X10⟩, X9⟩, X8⟩, X7⟩, X6⟩, X5⟩, X4⟩, X3⟩, X2⟩, X1⟩, X0⟩, Hby⟩, Hbx⟩
  isplitl [Hbx Hby]
  · iapply (cred_two (F := F) (barC c))
    isplitl [Hbx]
    · iapply (lc_bx (F := F) c); iexact Hbx
    · iapply (lc_by (F := F) c); iexact Hby
  isplitl [Hfx Hfy]
  · iapply (cred_two (F := F) (finC c))
    isplitl [Hfx]
    · iapply (lc_fx (F := F) c); iexact Hfx
    · iapply (lc_fy (F := F) c); iexact Hfy
  isplitl [X0 X1 X2 X3 X4 X5 X6 X7 X8 X9 X10]
  · isplitl [X0]; · iapply (lc_tX (F := F) 0 c); iexact X0
    isplitl [X1]; · iapply (lc_tX (F := F) 1 c); iexact X1
    isplitl [X2]; · iapply (lc_tX (F := F) 2 c); iexact X2
    isplitl [X3]; · iapply (lc_tX (F := F) 3 c); iexact X3
    isplitl [X4]; · iapply (lc_tX (F := F) 4 c); iexact X4
    isplitl [X5]; · iapply (lc_tX (F := F) 5 c); iexact X5
    isplitl [X6]; · iapply (lc_tX (F := F) 6 c); iexact X6
    isplitl [X7]; · iapply (lc_tX (F := F) 7 c); iexact X7
    isplitl [X8]; · iapply (lc_tX (F := F) 8 c); iexact X8
    isplitl [X9]; · iapply (lc_tX (F := F) 9 c); iexact X9
    iapply (lc_tX (F := F) 10 c); iexact X10
  · isplitl [Y0]; · iapply (lc_tY (F := F) 0 c); iexact Y0
    isplitl [Y1]; · iapply (lc_tY (F := F) 1 c); iexact Y1
    isplitl [Y2]; · iapply (lc_tY (F := F) 2 c); iexact Y2
    isplitl [Y3]; · iapply (lc_tY (F := F) 3 c); iexact Y3
    isplitl [Y4]; · iapply (lc_tY (F := F) 4 c); iexact Y4
    isplitl [Y5]; · iapply (lc_tY (F := F) 5 c); iexact Y5
    iapply (lc_tY (F := F) 6 c); iexact Y6

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ (((c : Thread nD τ).loc main_arg0) ↦{fullShare} m ((c : Thread nD τ).loc main_arg0))) ∗ emp) := by
  rw [Pipeline.unscopedRestP_none, unscopedRest0_eq]
  iintro ⟨Hx, Hlev, Hcr, -, HG⟩
  ihave Hc := (creds_intro (F := F) c) $$ Hcr
  imodintro
  unfold start G'
  isplitl
  · isplitr [Hx]
    · isplitl [HG]; · iexact HG
      isplitl [Hc]; · iexact Hc
      iexact Hlev
    · iexact Hx
  · iempintro

theorem phi0_intro (c : Dev nD) :
    iprop((start m c ∗ (((c : Thread nD τ).loc main_arg0) ↦{fullShare} m ((c : Thread nD τ).loc main_arg0)))
        ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨⟨Hs, Hx⟩, -, Hr⟩
  isplitl [Hs]; · iexact Hs
  isplitl [Hx]; · iexact Hx
  iexact Hr

theorem phi1_exit (c : Dev nD) :
    (dats m ρ 0 c).Φ (Fin.last cfg0.N)
      ⊢ iprop((((c : Thread nD τ).loc main_arg0) ↦{fullShare} m ((c : Thread nD τ).loc main_arg0)) ∗ Pipeline.ownSems0 osem c ∗ Pipeline.scopedRest cfg0.spec c) := by
  rw [show (dats m ρ 0 c).Φ (Fin.last cfg0.N) = Φ₁ m c from rfl]
  unfold Φ₁
  exact .rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ (O₀ c) 1 (by fin_cases w <;> fin_cases s <;> exact Nat.zero_lt_one) (fun g u h => O₀_pos h)
    · show _ ⊢ MayWait _ _ () 0
      rw [MayWait_zero]; iintro -; iempintro

theorem run_main (hbody : ∀ c : Dev nD, BodyObligation (dats (F := F) m ρ 0 c) (defs₀ (F := F)) 𝒱₀ () Set.univ) :
    θ_run defs (onTc (τ := τ) (main (F := F))) (st₀ m ρ)
      (fun r => ∀ c : Dev nD, (∀ w : Fin cfg0.W, r.2.mem ((cfg0.win w).arr.view.loc (c : Thread nD τ)) = (dats m ρ 0 c).arrAt w cfg0.N)
        ∧ r.2.mem ((c : Thread nD τ).loc main_arg0) = m ((c : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := fun c => iprop(start m c ∗ (((c : Thread nD τ).loc main_arg0) ↦{fullShare} m ((c : Thread nD τ).loc main_arg0))))
    (Y := fun c => iprop(((c : Thread nD τ).loc main_arg0) ↦{fullShare} m ((c : Thread nD τ).loc main_arg0)))
    (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      iintro ⟨Hx, -, HSI⟩
      icombine HSI Hx gives %hx
      imodintro
      isplitr; · ipureintro; exact Buf.eq_of_forall_mem_univ hx
      iexact HSI)
    (hQ := fun _ h c => ⟨(h c).1, (h c).2.2⟩)

/-- info: 'Cert.KernelIdeal.AR.run_main' depends on axioms: [propext, Classical.choice, Quot.sound] -/
#guard_msgs in #print axioms run_main

theorem flushed_eq (c : Dev nD) : (dats (F := F) m ρ 0 c).flushed (0 : Fin 1) t₀ = outC m c junk := by
  dsimp only [Dat.flushed, dats]
  rfl

theorem finalA_out (c : Dev nD) : (dats (F := F) m ρ 0 c).arrAt (0 : Fin 1) cfg0.N = outC m c junk := by
  show (dats (F := F) m ρ 0 c).arrAt (0 : Fin 1) (t₀.val + 1) = _
  rw [Dat.arrAt_succ, flush0_0 t₀, if_pos rfl, flushed_eq m ρ c]
  exact Memref.write_access_unit_zero_univ (Elt F) main_v1 (funext fun a => Nat.zero_mul _) _ _ _

/-- info: 'Cert.KernelIdeal.AR.finalA_out' depends on axioms: [propext, Classical.choice, Quot.sound] -/
#guard_msgs in #print axioms finalA_out

end Cert.KernelIdeal.AR

end
-- ==== Proof.Steps.lean ====
import proofs.«900705_g7700000000000706_dist_ar_v7x_xyz2x2x4_x_m1024_n512_bf16_1_alg».proof.Proof.Proto

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem step_signal (c o : Dev nD) (s : Sem sig) (d : Bool) (κ : ℕ) (O₀ O : CellTallies nD τ sig Unit) (hO : O₀ = O + tallyAt ((o : Thread nD τ), .reg s) () 1)
    (W : Waits sig Unit) {α : Type} {Q : α → sProp 𝕄} {k : PUnit → Prog (TpuEff nD τ sig (Elt F) Λ₀ .tc) α}
    (hr : τ.routes (c : Thread nD τ) (o : Thread nD τ) = true) :
    iprop(cellInv ER (Rd m) κ ((o : Thread nD τ), .reg s) ∗ owes (c : Thread nD τ) O₀ W ∗ dutyTok ER ((o : Thread nD τ), .reg s) 0 d
        ∗ (Rd m).payload ((o : Thread nD τ), .reg s) 0 d ∗ reached ER ((o : Thread nD τ), .reg s) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (o : Thread nD τ) s 1) k) Q) :=
  Rounds.wp_signal 𝒱₀ ER (Rd m) (c : Thread nD τ) none (dst := (o : Thread nD τ)) (κ := κ) (d := d)
    (by rw [duties_reg]; exact Finset.mem_univ _) (amount_reg m o s d) () O hO hr

theorem step_wait_reg (c : Dev nD) (s : Sem sig) (κ : ℕ) (O : CellTallies nD τ sig Unit) (W : Waits sig Unit)
    {α : Type} {Q : α → sProp 𝕄} {k : PUnit → Prog (TpuEff nD τ sig (Elt F) Λ₀ .tc) α} :
    iprop(cellInv ER (Rd m) κ ((c : Thread nD τ), .reg s) ∗ cred (tallyAt ((c : Thread nD τ), .reg s) () 2) ∗ owes (c : Thread nD τ) O W
        ∗ MayWait (c : Thread nD τ) (.reg s) () O ∗ atPos ER ((c : Thread nD τ), .reg s) 0 ∅ 0)
      ⊢ iprop((iprop(owes (c : Thread nD τ) O (insert (SemLoc.reg s, ()) W) ∗ atPos ER ((c : Thread nD τ), .reg s) (0 + 1) ∅ 0 ∗ reached ER ((c : Thread nD τ), .reg s) (0 + 1)
              ∗ bigSep ((Rd m).duties ((c : Thread nD τ), .reg s) 0 \ ∅) (fun d => (Rd m).payload ((c : Thread nD τ), .reg s) 0 d))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s 2) k) Q) :=
  Rounds.wp_wait_rest_token 𝒱₀ ER (Rd m) (c : Thread nD τ) none (κ := κ)
    (wpE_semWait_eq 𝒱₀ (c : Thread nD τ) none Set.univ) (Set.mem_univ _) () (O := O) (W := W) (R := 0) (m := 0) (T := ∅)
    (by rw [expect_reg])

theorem step_wait_dma (c : Dev nD) (i : DmaSem sig) (κ : ℕ) (O : CellTallies nD τ sig Unit) (W : Waits sig Unit) (N : ℕ) (hN : amtD i.val = N)
    {sp sp' : Space} {s s' : Shape} {e e' : EltTy} {src : Memref sig .tc sp' s' e'} {κ' : Kind} {dst : Memref sig κ' sp s e}
    {hsrc : src.view.WordExact} {hdst : dst.view.WordExact} (hd : dst.view.dmaCredit = N)
    {α : Type} {Q : α → sProp 𝕄} {k : PUnit → Prog (TpuEff nD τ sig (Elt F) Λ₀ .tc) α} :
    iprop(cellInv ER (Rd m) κ (dC c i) ∗ cred (tallyAt (dC c i) () N) ∗ owes (c : Thread nD τ) O W
        ∗ MayWait (c : Thread nD τ) (.dma i) () O ∗ atPos ER (dC c i) 0 ∅ 0)
      ⊢ iprop((iprop(owes (c : Thread nD τ) O (insert (SemLoc.dma i, ()) W) ∗ atPos ER (dC c i) (0 + 1) ∅ 0 ∗ reached ER (dC c i) (0 + 1) ∗ payD m c i.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 i src dst hsrc hdst) k) Q) := by
  subst hd
  rw [← rest_dma m c i]
  exact Rounds.wp_wait_rest_token 𝒱₀ ER (Rd m) (c : Thread nD τ) none (κ := κ)
    (wpE_waitDma2_eq 𝒱₀ (c : Thread nD τ) none Set.univ) (Set.mem_univ _) () (O := O) (W := W) (R := 0) (m := 0) (T := ∅)
    (by rw [Nat.zero_add, expect_dma, hN])

theorem step_close (c : Dev nD) (sm : SemLoc sig) (κ : ℕ) :
    iprop(cellInv ER (Rd (F := F) m) κ ((c : Thread nD τ), sm) ∗ atPos ER ((c : Thread nD τ), sm) (0 + 1) ∅ 0) ⊢ (iprop(|={Set.univ}=> semVal ((c : Thread nD τ), sm) 0) : sProp 𝕄) :=
  Rounds.cell_close ER (Rd m) (Set.mem_univ κ) (fun h => h) (R := 0 + 1) (duties_later m ((c : Thread nD τ), sm))

theorem step_copy (c : Dev nD) (κ : ℕ) (fd : Buf (Elt F) (xvM.view.loc (c : Thread nD τ)))
    {hsrc : (aM : Memref sig .tc .hbm S1024x512 .f32).view.WordExact} {hdst : (xvM : Memref sig .tc .vmem S1024x512 .f32).view.WordExact}
    {hsem : DmaTarget.Typed (nD := nD) (τ := τ) .hbm (.dma (1 : DmaSem sig)) (DmaTarget.here (p := (Proc.tc : Proc τ)) (xvM : Memref sig .tc .vmem S1024x512 .f32))}
    {α : Type} {Q : α → sProp 𝕄} {k : PUnit → Prog (TpuEff nD τ sig (Elt F) Λ₀ .tc) α} :
    iprop(cellInv ER (Rd m) κ (dC c 1) ∗ (aM.view.loc (c : Thread nD τ) ↦[aM.view.set]{fullShare} Xa m c) ∗ (xvM.view.loc (c : Thread nD τ) ↦[xvM.view.set]{fullShare} fd)
        ∗ dutyTok ER (dC c 1) 0 false ∗ reached ER (dC c 1) 0)
      ⊢ iprop((cred (tallyAt (dC c 1) () NX) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma aM (.here xvM) (.dma (1 : DmaSem sig)) hsrc hdst hsem) k) Q) :=
  Rounds.wp_copy_pointsTo 𝒱₀ ER (Rd m) (c : Thread nD τ) none (κ := κ) (r := 0) (d := false) (fd := fd)
    (by rw [duties_dma]; exact Finset.mem_singleton_self _) () NX rfl rfl
    (by
      rw [payload_dma]
      show _ ⊢ iprop((xvM.view.loc (c : Thread nD τ) ↦[xvM.view.set]{fullShare} Xv m c) ∗ (aM.view.loc (c : Thread nD τ) ↦[aM.view.set]{fullShare} Xa m c))
      have e : (xvM : Memref sig .tc .vmem S1024x512 .f32).view.write (Elt F) fd ((aM : Memref sig .tc .hbm S1024x512 .f32).view.read (Elt F) (Xa m c)) Finset.univ = Xv m c := by
        show (View.whole cc0_scratch0).write (Elt F) fd ((View.whole main_arg0).read (Elt F) (Xa m c)) Finset.univ = Xv m c
        rw [View.read_whole]; exact View.write_whole_univ _ _ _
      rw [e])

theorem step_send (c o n : Dev nD) (hn : n = o) {s : Shape} (src : Memref sig .tc .vmem s .bf16) (dst : Memref sig .tc .vmem s .bf16) (iS iR : DmaSem sig) (N : ℕ) (κ₁ κ₂ : ℕ)
    {hsc : (dst : Memref sig (Dev.tc n : Thread nD τ).2.kind .vmem s .bf16).view.ref.isScScratch = false}
    {hsrc : src.view.WordExact} {hdst : dst.view.WordExact}
    {hsem : DmaTarget.Typed .vmem (.dma iR) (.remote (Dev.tc n : Thread nD τ) dst (.dma iS) hsc)}
    {α : Type} {Q : α → sProp 𝕄} {k : PUnit → Prog (TpuEff nD τ sig (Elt F) Λ₀ .tc) α}
    (q : PosShare TreeShare) (fs : Buf (Elt F) (src.view.loc (c : Thread nD τ))) (fd : Buf (Elt F) (dst.view.loc (o : Thread nD τ)))
    (O₀ O : CellTallies nD τ sig Unit) (hO : O₀ = O + tallyAt (dC o iR) () N) (W : Waits sig Unit)
    (hN : dst.view.dmaCredit = N) (hkS : amtD iS.val = N) (hkR : amtD iR.val = N)
    (hpayS : (src.view.loc (c : Thread nD τ) ↦[src.view.set]{q} fs : sProp 𝕄) ⊢ payD m c iS.val)
    (hpayR : (dst.view.loc (o : Thread nD τ) ↦[dst.view.set]{fullShare} (dst.view.write (Elt F) fd (src.view.read (Elt F) fs) Finset.univ) : sProp 𝕄) ⊢ payD m o iR.val)
    (hr : τ.routes (c : Thread nD τ) (o : Thread nD τ) = true) :
    iprop(cellInv ER (Rd m) κ₁ (dC c iS) ∗ cellInv ER (Rd m) κ₂ (dC o iR)
        ∗ (src.view.loc (c : Thread nD τ) ↦[src.view.set]{q} fs) ∗ (dst.view.loc (o : Thread nD τ) ↦[dst.view.set]{fullShare} fd)
        ∗ owes (c : Thread nD τ) O₀ W
        ∗ dutyTok ER (dC c iS) 0 false ∗ reached ER (dC c iS) 0
        ∗ dutyTok ER (dC o iR) 0 false ∗ reached ER (dC o iR) 0)
      ⊢ iprop(((cred (tallyAt (dC c iS) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma iS) hsc) (.dma iR) hsrc hdst hsem) k) Q) := by
  subst hn
  exact Rounds.wp_send_pointsTo 𝒱₀ ER (Rd m) (c : Thread nD τ) none (κ₁ := κ₁) (κ₂ := κ₂) (r₁ := 0) (r₂ := 0) (d₁ := false) (d₂ := false) (fd := fd) (c' := (n : Thread nD τ)) (src := src) (dst := dst) (sS := .dma iS) (sem := .dma iR) (q := q) (fs := fs)
    (by rw [duties_dma]; exact Finset.mem_singleton_self _) (by rw [duties_dma]; exact Finset.mem_singleton_self _)
    () () N (show dst.view.amount (.dma iR) = N from hN) (by rw [amount_dma, hkS]) (by rw [amount_dma, hkR]) O hO (W := W)
    (by rw [payload_dma]; exact hpayS) (by rw [payload_dma]; exact hpayR) hr

/-- The `k`-th semaphore of a one-axis array. -/
abbrev semAt {n : ℕ} (a : DmaSems sig ⟨1, ![n]⟩) (k : ℕ) (h : ∀ i, (![k] : Fin 1 → ℕ) i + S1.size i ≤ (⟨1, ![n]⟩ : Shape).size i) : DmaSem sig :=
  ((a.slice (Rect.unit (s := ⟨1, ![n]⟩) ![k] S1.size h)).squeeze S_ squeezes_S1_S_).sem

/-- A stretch of the body, run on the whole buffers and the kernel's own semaphores. -/
abbrev onWhole.{u} {β : Sort u} (p : (a0 : Memref sig .tc .hbm S1024x512 .f32) → a0.IsWhole → (a1 : Memref sig .tc .vmem S1024x512 .bf16) → a1.IsWhole
    → (a2 : Memref sig .tc .vmem S1024x512 .f32) → a2.IsWhole → (a3 : Memref sig .tc .vmem S608x512 .bf16) → a3.IsWhole
    → (a4 : Memref sig .tc .vmem S608x512 .bf16) → a4.IsWhole → (a5 : Memref sig .tc .vmem S416x512 .bf16) → a5.IsWhole
    → DmaSems sig S_ → DmaSems sig S11 → DmaSems sig S11 → DmaSems sig S7 → DmaSems sig S7 → Sems sig S_ → β) : β :=
  p (Memref.whole main_arg0) (Memref.isWhole_whole _) (Memref.whole cc0_stg0_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scoped0

theorem routes_all (a b : Dev nD) : τ.routes (a : Thread nD τ) (b : Thread nD τ) = true := by revert a b; decide

theorem heldRead_open {sp : Space} {s : Shape} {e : EltTy} (o : Dev nD) (M : Memref sig .tc sp s e) (q : PosShare TreeShare) (v : s.Idx → Elt F e) :
    heldRead (F := F) o M q v ⊢ iprop(∃ f : Buf (Elt F) (M.view.loc (o : Thread nD τ)), ⌜M.view.read (Elt F) f = v⌝ ∗ (M.view.loc (o : Thread nD τ) ↦[M.view.set]{q} f)) :=
  Entails.of_eq rfl

theorem heldRead_close {sp : Space} {s : Shape} {e : EltTy} (o : Dev nD) (M : Memref sig .tc sp s e) (q : PosShare TreeShare) (v : s.Idx → Elt F e) :
    iprop(∃ f : Buf (Elt F) (M.view.loc (o : Thread nD τ)), ⌜M.view.read (Elt F) f = v⌝ ∗ (M.view.loc (o : Thread nD τ) ↦[M.view.set]{q} f)) ⊢ heldRead (F := F) o M q v :=
  Entails.of_eq rfl

theorem heldAny_open {sp : Space} {s : Shape} {e : EltTy} (o : Dev nD) (M : Memref sig .tc sp s e) (q : PosShare TreeShare) :
    heldAny (F := F) o M q ⊢ iprop(∃ f : Buf (Elt F) (M.view.loc (o : Thread nD τ)), M.view.loc (o : Thread nD τ) ↦[M.view.set]{q} f) :=
  Entails.of_eq rfl

theorem lent_any {s : Shape} (o : Dev nD) (src : Memref sig .tc .vmem s .bf16) (q : PosShare TreeShare) (f : Buf (Elt F) (src.view.loc (o : Thread nD τ))) :
    (src.view.loc (o : Thread nD τ) ↦[src.view.set]{q} f : sProp 𝕄) ⊢ heldAny (F := F) o src q := by
  unfold heldAny; iintro H; iexists f; iexact H

theorem whole_pts (c : Dev nD) (b : Ref sig .tc) (f : Buf (Elt F) ((c : Thread nD τ).loc b)) :
    ((Memref.whole b : Memref sig .tc _ _ _).view.loc (c : Thread nD τ) ↦[(Memref.whole b : Memref sig .tc _ _ _).view.set]{fullShare} f : sProp 𝕄)
      = (((c : Thread nD τ).loc b) ↦{fullShare} f) := by
  rw [show (Memref.whole b : Memref sig .tc _ _ _).view.set = Finset.univ from View.set_whole _]

/-- A load through a memref that is its whole buffer, held whole. -/
theorem load_whole {s : Shape} {e : EltTy} (c : Dev nD) (M : Memref sig .tc .vmem s e) (hM : M.view.set = Finset.univ) {r : LoadRect s} {hl : M.view.LoadsAt r}
    {α : Type} {k : (r.shape.Idx → Elt F e) → Prog (TpuEff nD τ sig (Elt F) Λ₀ .tc) α} {q : PosShare TreeShare} {f : Buf (Elt F) (M.view.loc (c : Thread nD τ))} {Q : α → sProp 𝕄} :
    (M.view.loc (c : Thread nD τ) ↦[M.view.set]{q} f : sProp 𝕄)
      ⊢ iprop(((M.view.loc (c : Thread nD τ) ↦[M.view.set]{q} f) -∗ wp frame (wpE (defs₀ (F := F)) 𝒱₀ (c : Thread nD τ) none) Set.univ (k (M.view.readAt (Elt F) r f)) Q)
        -∗ wp frame (wpE (defs₀ (F := F)) 𝒱₀ (c : Thread nD τ) none) Set.univ (.op (.load M r hl) k) Q) :=
  wp_load 𝒱₀ (c : Thread nD τ) none Set.univ (by rw [hM]; exact Finset.subset_univ _)

/-- A store of a whole rectangle into a buffer held whole. -/
theorem store_whole {s : Shape} {e : EltTy} (c : Dev nD) (M : Memref sig .tc .vmem s e) {r : Rect s} {w : r.shape.Idx → Elt F e} {hx : (M.access r).Stores Finset.univ}
    {hm : (Finset.univ : Finset r.shape.Idx) = Finset.univ ∨ ∀ a, r.stride a = 1}
    {α : Type} {k : PUnit → Prog (TpuEff nD τ sig (Elt F) Λ₀ .tc) α} {f : Buf (Elt F) ((M.access r).loc (c : Thread nD τ))} {Q : α → sProp 𝕄} :
    ((M.access r).loc (c : Thread nD τ) ↦[M.view.set]{fullShare} f : sProp 𝕄)
      ⊢ iprop((((M.access r).loc (c : Thread nD τ) ↦[M.view.set]{fullShare} ((M.access r).write (Elt F) f w Finset.univ)) -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) :=
  wp_store 𝒱₀ (c : Thread nD τ) none Set.univ (by rw [View.setOn_univ]; exact View.set_slice_subset _ _)

/-- DMA cell `i` of device `c` is the launch's cell `i + 1`. -/
theorem kcell_dma (c : Dev nD) (i : ℕ) (hi : 0 < i ∧ i < 38) : kcell (c, (⟨i + 1, by omega⟩ : Fin 39)) = dC c (dI i) := by
  show ((c : Thread nD τ), (if i + 1 = 0 then _ else if i + 1 = 1 then _ else SemLoc.dma (dI (i + 1 - 1)))) = _
  rw [if_neg (by omega), if_neg (by omega)]; rfl

theorem cell_dma (K : Dev nD × Fin 39 → ℕ) (c : Dev nD) (i : ℕ) (hi : 0 < i ∧ i < 38) :
    records (F := F) m K ⊢ iprop(cellInv ER (Rd m) (K (c, ⟨i + 1, by omega⟩)) (dC c (dI i)) ∗ reached ER (dC c (dI i)) 0) := by
  rw [← kcell_dma c i hi]
  iintro #H; isplitr
  · iapply (inv_at m K _); iexact H
  · iapply (reached_at (F := F) m K _); iexact H

/-- The wait for the one transfer of DMA cell `i`, allowed while everything owed lies on cells of level `n` or more. -/
theorem wait_dma (K : Dev nD × Fin 39 → ℕ) (c : Dev nD) (i : ℕ) (O : CellTallies nD τ sig Unit) (W : Waits sig Unit) (n : ℕ)
    (hO : ∀ (g : GSem nD τ sig) (u : Unit), 0 < O g u → g.1.2 = .tc ∧ n ≤ lv g ())
    {sp sp' : Space} {s s' : Shape} {e e' : EltTy} {src : Memref sig .tc sp' s' e'} {κ' : Kind} {dst : Memref sig κ' sp s e}
    {hsrc : src.view.WordExact} {hdst : dst.view.WordExact} (hd : dst.view.dmaCredit = amtD i)
    {α : Type} {Q : α → sProp 𝕄} {k : PUnit → Prog (TpuEff nD τ sig (Elt F) Λ₀ .tc) α}
    (hi : 0 < i ∧ i < 38 := by decide) (hn : (if 13 ≤ i ∧ i ≤ 23 then 2 else if 31 ≤ i then 3 else 0) < n := by decide) :
    records m K ⊢ iprop(levAts L lv -∗ cred (tallyAt (dC c (dI i)) () (amtD i)) -∗ owes (c : Thread nD τ) O W -∗ atPos ER (dC c (dI i)) 0 ∅ 0
      -∗ (iprop(owes (c : Thread nD τ) O (insert (SemLoc.dma (dI i), ()) W) ∗ atPos ER (dC c (dI i)) (0 + 1) ∅ 0 ∗ payD m c i) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 (dI i) src dst hsrc hdst) k) Q) := by
  have e : (dI i).val = i := Nat.mod_eq_of_lt hi.2
  have hl : lv (dC c (dI i)) () < n := by
    show (if 13 ≤ (dI i).val ∧ (dI i).val ≤ 23 then 2 else if 31 ≤ (dI i).val then 3 else 0) < n
    rw [e]; exact hn
  iintro #HR #Hlev Hc HO Ha Hk
  ihave HI := (cell_dma m K c i hi) $$ HR
  icases HI with ⟨HI, -⟩
  iapply (step_wait_dma m c (dI i) (K (c, ⟨i + 1, by omega⟩)) O W (amtD i) (congrArg amtD e) hd) $$ [HI Hc HO Ha]
  · isplitl [HI]; · iexact HI
    isplitl [Hc]; · iexact Hc
    isplitl [HO]; · iexact HO
    isplitr; · iapply (mayWait_of c (.dma (dI i)) O n hl hO); iexact Hlev
    iexact Ha
  iintro ⟨HO, Ha, -, Hp⟩
  iapply Hk
  isplitl [HO]; · iexact HO
  isplitl [Ha]; · iexact Ha
  iapply (Entails.of_eq (congrArg (payD m c) e)); iexact Hp

/-- An addressed transfer of one chunk whose source slice reads as `v`, into a slice of device `o` held at some contents: the
    source's cell hands the slice back, the destination's hands its device the slice reading as `v`. -/
theorem send_chunk (K : Dev nD × Fin 39 → ℕ) (c o n : Dev nD) (hn : n = o) {s : Shape} (src dst : Memref sig .tc .vmem s .bf16) (iS iR : ℕ)
    {hsc : (dst : Memref sig (Dev.tc n : Thread nD τ).2.kind .vmem s .bf16).view.ref.isScScratch = false}
    {hsrc : src.view.WordExact} {hdst : dst.view.WordExact}
    {hsem : DmaTarget.Typed .vmem (.dma (dI iR)) (.remote (Dev.tc n : Thread nD τ) dst (.dma (dI iS)) hsc)}
    {α : Type} {Q : α → sProp 𝕄} {k : PUnit → Prog (TpuEff nD τ sig (Elt F) Λ₀ .tc) α}
    (q : PosShare TreeShare) (fs : Buf (Elt F) (src.view.loc (c : Thread nD τ)))
    (v v' : s.Idx → Elt F .bf16) (hv : src.view.read (Elt F) fs = v)
    (O₀ O : CellTallies nD τ sig Unit) (hO : O₀ = O + tallyAt (dC o (dI iR)) () (amtD iS)) (W : Waits sig Unit)
    (hN : dst.view.dmaCredit = amtD iS) (hkR : amtD iR = amtD iS)
    (hpS : payD m c iS = heldAny c src q) (hpR : payD m o iR = heldRead o dst fullShare v') (hvv : v' = v)
    (hS : 0 < iS ∧ iS < 38 := by decide) (hR : 0 < iR ∧ iR < 38 := by decide) :
    records m K ⊢ iprop((src.view.loc (c : Thread nD τ) ↦[src.view.set]{q} fs) -∗ heldAny o dst fullShare
      -∗ owes (c : Thread nD τ) O₀ W -∗ dutyTok ER (dC c (dI iS)) 0 false -∗ dutyTok ER (dC o (dI iR)) 0 false
      -∗ ((cred (tallyAt (dC c (dI iS)) () (amtD iS)) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma (dI iS)) hsc) (.dma (dI iR)) hsrc hdst hsem) k) Q) := by
  subst hvv
  have eS : (dI iS).val = iS := Nat.mod_eq_of_lt hS.2
  have eR : (dI iR).val = iR := Nat.mod_eq_of_lt hR.2
  iintro #HR Hs Hd HO HtS HtR
  ihave Hd' := (heldAny_open o dst fullShare) $$ Hd
  icases Hd' with ⟨%fd, Hd⟩
  ihave HIS := (cell_dma m K c iS hS) $$ HR
  icases HIS with ⟨HIS, HRS⟩
  ihave HIR := (cell_dma m K o iR hR) $$ HR
  icases HIR with ⟨HIR, HRR⟩
  iapply (step_send m c o n hn src dst (dI iS) (dI iR) (amtD iS) (K (c, ⟨iS + 1, by omega⟩)) (K (o, ⟨iR + 1, by omega⟩)) q fs fd O₀ O hO W hN (congrArg amtD eS) ((congrArg amtD eR).trans hkR)
    (by rw [eS, hpS]; exact lent_any c src q fs)
    (by rw [eR, hpR, ← hv]; unfold heldRead; iintro H; iexists (dst.view.write (Elt F) fd (src.view.read (Elt F) fs) Finset.univ); isplitr
        · ipureintro; exact View.read_write_univ _ _
        · iexact H)
    (routes_all c o)) $$ [HIS HIR Hs Hd HO HtS HRS HtR HRR]
  isplitl [HIS]; · iexact HIS
  isplitl [HIR]; · iexact HIR
  isplitl [Hs]; · iexact Hs
  isplitl [Hd]; · iexact Hd
  isplitl [HO]; · iexact HO
  isplitl [HtS]; · iexact HtS
  isplitl [HRS]; · iexact HRS
  isplitl [HtR]; · iexact HtR
  iexact HRR

end Cert.KernelIdeal.AR

end
-- ==== Proof.States.lean ====
import proofs.«900705_g7700000000000706_dist_ar_v7x_xyz2x2x4_x_m1024_n512_bf16_1_alg».proof.Proof.Steps

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def xvP (c : Dev nD) : sProp 𝕄 := xvM.view.loc (c : Thread nD τ) ↦[xvM.view.set]{fullShare} Xv m c
def argP (c : Dev nD) : sProp 𝕄 := aM.view.loc (c : Thread nD τ) ↦[aM.view.set]{fullShare} Xa m c
def outP (c : Dev nD) (g : Buf (Elt F) (oM.view.loc (c : Thread nD τ))) : sProp 𝕄 := oM.view.loc (c : Thread nD τ) ↦[oM.view.set]{fullShare} g

def crD (c : Dev nD) (i : ℕ) : sProp 𝕄 := cred (tallyAt (dC c (dI i)) () (amtD i))
def at0 (c : Dev nD) (i : ℕ) : sProp 𝕄 := atPos ER (dC c (dI i)) 0 ∅ 0
def at1 (c : Dev nD) (i : ℕ) : sProp 𝕄 := atPos ER (dC c (dI i)) (0 + 1) ∅ 0
def tkD (o : Dev nD) (i : ℕ) : sProp 𝕄 := dutyTok ER (dC o (dI i)) 0 false

def finP (c : Dev nD) : sProp 𝕄 :=
  iprop(atPos ER (finC c) 0 ∅ 0 ∗ cred (tallyAt (finC c) () 2) ∗ dutyTok ER (finC (px c)) 0 false ∗ dutyTok ER (finC (py c)) 0 true)

def xrLanded (c : Dev nD) : sProp 𝕄 :=
  iprop(heldRead c xr0 fullShare.right (sx0 m (px c)) ∗ heldRead c xr1 fullShare.right (sx1 m (px c)) ∗ heldRead c xr2 fullShare.right (sx2 m (px c)) ∗ heldRead c xr3 fullShare.right (sx3 m (px c)) ∗ heldRead c xr4 fullShare.right (sx4 m (px c)) ∗ heldRead c xr5 fullShare.right (sx5 m (px c)) ∗ heldRead c xr6 fullShare.right (sx6 m (px c)) ∗ heldRead c xr7 fullShare (sx7 m (px c)) ∗ heldRead c xr8 fullShare (sx8 m (px c)) ∗ heldRead c xr9 fullShare (sx9 m (px c)) ∗ heldRead c xr10 fullShare (sx10 m (px c)))
def yrLanded (c : Dev nD) : sProp 𝕄 :=
  iprop(heldRead c yr0 fullShare (sx0 m (px (py c))) ∗ heldRead c yr1 fullShare (sx1 m (px (py c))) ∗ heldRead c yr2 fullShare (sx2 m (px (py c))) ∗ heldRead c yr3 fullShare (sx3 m (px (py c))) ∗ heldRead c yr4 fullShare (sx4 m (px (py c))) ∗ heldRead c yr5 fullShare (sx5 m (px (py c))) ∗ heldRead c yr6 fullShare (sx6 m (px (py c))))

def St1 (K : Dev nD × Fin 39 → ℕ) (c : Dev nD) (g : Buf (Elt F) (oM.view.loc (c : Thread nD τ))) : sProp 𝕄 :=
  iprop(records m K ∗ levAts L lv ∗ (∃ W, owes (c : Thread nD τ) (OyUp c 7) W) ∗ xvP m c ∗ argP m c ∗ outP c g
    ∗ bigSepL [2, 3, 4, 5, 6, 7, 8, 9, 10, 11, 12] (crD c)
    ∗ bigSepL [2, 3, 4, 5, 6, 7, 8, 9, 10, 11, 12, 14, 15, 16, 17, 18, 19, 20, 21, 22, 23, 24, 25, 26, 27, 28, 29, 30, 31, 32, 33, 34, 35, 36, 37] (at0 c)
    ∗ bigSepL [1, 13] (at1 c)
    ∗ finP c
    ∗ bigSepL [24, 25, 26, 27, 28, 29, 30] (tkD c) ∗ bigSepL [31, 32, 33, 34, 35, 36, 37] (tkD (py c))
    ∗ bigSepL [14, 15, 16, 17, 18, 19, 20, 21, 22, 23, 31, 32, 33, 34, 35, 36, 37] (crD c)
    ∗ yrAll (py c)
    ∗ heldRead c xr0 fullShare (sx0 m (px c)))

def St2 (K : Dev nD × Fin 39 → ℕ) (c : Dev nD) (g : Buf (Elt F) (oM.view.loc (c : Thread nD τ))) : sProp 𝕄 :=
  iprop(records m K ∗ levAts L lv ∗ (∃ W, owes (c : Thread nD τ) (Ofin c) W) ∗ xvP m c ∗ argP m c ∗ outP c (outA m c g)
    ∗ bigSepL [2, 3, 4, 5, 6, 7, 8, 9, 10, 11, 12, 24, 25, 26, 27, 28, 29, 30] (crD c)
    ∗ bigSepL [2, 3, 4, 5, 6, 7, 8, 9, 10, 11, 12, 24, 25, 26, 27, 28, 29, 30, 31, 32, 33, 34, 35, 36, 37] (at0 c)
    ∗ bigSepL [1, 13, 14, 15, 16, 17, 18, 19, 20, 21, 22, 23] (at1 c)
    ∗ finP c
    ∗ bigSepL [31, 32, 33, 34, 35, 36, 37] (crD c)
    ∗ xrLanded m c)

def St3 (K : Dev nD × Fin 39 → ℕ) (c : Dev nD) (g : Buf (Elt F) (oM.view.loc (c : Thread nD τ))) : sProp 𝕄 :=
  iprop(records m K ∗ levAts L lv ∗ (∃ W, owes (c : Thread nD τ) (Ofin c) W) ∗ xvP m c ∗ argP m c ∗ outP c (outC m c g)
    ∗ bigSepL [2, 3, 4, 5, 6, 7, 8, 9, 10, 11, 12, 24, 25, 26, 27, 28, 29, 30] (crD c)
    ∗ bigSepL [2, 3, 4, 5, 6, 7, 8, 9, 10, 11, 12, 24, 25, 26, 27, 28, 29, 30] (at0 c)
    ∗ bigSepL [1, 13, 14, 15, 16, 17, 18, 19, 20, 21, 22, 23, 31, 32, 33, 34, 35, 36, 37] (at1 c)
    ∗ finP c
    ∗ xrLanded m c ∗ yrLanded m c)

def St4 (K : Dev nD × Fin 39 → ℕ) (c : Dev nD) (g : Buf (Elt F) (oM.view.loc (c : Thread nD τ))) : sProp 𝕄 :=
  iprop(records m K ∗ (∃ W, owes (c : Thread nD τ) 0 W) ∗ xvP m c ∗ argP m c ∗ outP c (outC m c g)
    ∗ atPos ER (finC c) (0 + 1) ∅ 0
    ∗ bigSepL [1, 2, 3, 4, 5, 6, 7, 8, 9, 10, 11, 12, 13, 14, 15, 16, 17, 18, 19, 20, 21, 22, 23, 24, 25, 26, 27, 28, 29, 30, 31, 32, 33, 34, 35, 36, 37] (at1 c)
    ∗ xrLanded m c ∗ yrLanded m c
    ∗ bigSepL [2, 3, 4, 5, 6, 7, 8, 9, 10, 11, 12] (fun i => payD m c i)
    ∗ bigSepL [24, 25, 26, 27, 28, 29, 30] (fun i => payD m c i))

theorem sep_notation (a b : sProp 𝕄) : BI.sep a b = iprop(a ∗ b) := rfl

end Cert.KernelIdeal.AR

end
-- ==== Proof.States2.lean ====
import proofs.«900705_g7700000000000706_dist_ar_v7x_xyz2x2x4_x_m1024_n512_bf16_1_alg».proof.Proof.States

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def St1b (K : Dev nD × Fin 39 → ℕ) (c : Dev nD) (g : Buf (Elt F) (oM.view.loc (c : Thread nD τ))) : sProp 𝕄 :=
  iprop(records m K ∗ levAts L lv ∗ (∃ W, owes (c : Thread nD τ) (OyUp c 1) W) ∗ xvP m c ∗ argP m c ∗ outP c (out6 m c g)
    ∗ bigSepL [2, 3, 4, 5, 6, 7, 8, 9, 10, 11, 12, 24, 25, 26, 27, 28, 29] (crD c)
    ∗ bigSepL [2, 3, 4, 5, 6, 7, 8, 9, 10, 11, 12, 20, 21, 22, 23, 24, 25, 26, 27, 28, 29, 30, 31, 32, 33, 34, 35, 36, 37] (at0 c)
    ∗ bigSepL [1, 13, 14, 15, 16, 17, 18, 19] (at1 c)
    ∗ finP c
    ∗ tkD c 30 ∗ tkD (py c) 37
    ∗ bigSepL [20, 21, 22, 23, 31, 32, 33, 34, 35, 36, 37] (crD c)
    ∗ heldAny (py c) yr6 fullShare
    ∗ heldRead c xr0 fullShare.right (sx0 m (px c)) ∗ heldRead c xr1 fullShare.right (sx1 m (px c)) ∗ heldRead c xr2 fullShare.right (sx2 m (px c)) ∗ heldRead c xr3 fullShare.right (sx3 m (px c)) ∗ heldRead c xr4 fullShare.right (sx4 m (px c)) ∗ heldRead c xr5 fullShare.right (sx5 m (px c))
    ∗ heldRead c xr6 fullShare (sx6 m (px c)))

end Cert.KernelIdeal.AR

end
-- ==== Proof.States0.lean ====
import proofs.«900705_g7700000000000706_dist_ar_v7x_xyz2x2x4_x_m1024_n512_bf16_1_alg».proof.Proof.States2

/-! # The body's holdings at the start of part 2

After the entry handshake: the input copy landed, both partners' receive slices in hand, the send buffer cut into its
eleven chunk slices; every transfer and the exit signals still owed. -/

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The device's eleven send slices, each at some contents. -/
def xsAll (o : Dev nD) : sProp 𝕄 :=
  iprop(heldAny o xs0 fullShare ∗ heldAny o xs1 fullShare ∗ heldAny o xs2 fullShare ∗ heldAny o xs3 fullShare ∗ heldAny o xs4 fullShare ∗ heldAny o xs5 fullShare ∗ heldAny o xs6 fullShare ∗ heldAny o xs7 fullShare ∗ heldAny o xs8 fullShare ∗ heldAny o xs9 fullShare ∗ heldAny o xs10 fullShare)

/-- At the start of part 2. -/
def St0 (K : Dev nD × Fin 39 → ℕ) (c : Dev nD) (g : Buf (Elt F) (oM.view.loc (c : Thread nD τ))) : sProp 𝕄 :=
  iprop(records m K ∗ levAts L lv ∗ (∃ W, owes (c : Thread nD τ) (OxUp c 11) W) ∗ xvP m c ∗ argP m c ∗ outP c g
    ∗ xsAll c ∗ xrAll (px c) ∗ yrAll (py c)
    ∗ bigSepL [2, 3, 4, 5, 6, 7, 8, 9, 10, 11, 12] (tkD c) ∗ bigSepL [13, 14, 15, 16, 17, 18, 19, 20, 21, 22, 23] (tkD (px c))
    ∗ bigSepL [2, 3, 4, 5, 6, 7, 8, 9, 10, 11, 12, 13, 14, 15, 16, 17, 18, 19, 20, 21, 22, 23, 24, 25, 26, 27, 28, 29, 30, 31, 32, 33, 34, 35, 36, 37] (at0 c)
    ∗ bigSepL [1] (at1 c)
    ∗ finP c
    ∗ bigSepL [24, 25, 26, 27, 28, 29, 30] (tkD c) ∗ bigSepL [31, 32, 33, 34, 35, 36, 37] (tkD (py c))
    ∗ bigSepL [13, 14, 15, 16, 17, 18, 19, 20, 21, 22, 23, 31, 32, 33, 34, 35, 36, 37] (crD c))

end Cert.KernelIdeal.AR

end
-- ==== Proof.Regions.lean ====
import proofs.«900705_g7700000000000706_dist_ar_v7x_xyz2x2x4_x_m1024_n512_bf16_1_alg».proof.Proof.Proto

/-! # The exchange buffers, chunk by chunk

Each of the three exchange buffers is a stack of row bands: the chunks' row ranges [0,64), [64,128), …, [320,384),
[384,416), [416,480), [480,512), [512,576), [576,608) tile the 608 rows of the send and the x receive buffer, and the
first seven tile the 416 rows of the y receive buffer. A buffer held whole at some contents is therefore its chunks'
slices each held at some contents, and back (the joined contents are the pieces' contents, piece by piece). -/

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Bands: the elements whose coordinate on one axis lies in a range -/

/-- The elements of shape `s` whose coordinate on axis `a₀` lies in `[lo, hi)`. -/
def band {s : Shape} (a₀ : Fin s.rank) (lo hi : ℕ) : Finset s.Idx :=
  Finset.univ.filter fun i => lo ≤ (i a₀ : ℕ) ∧ (i a₀ : ℕ) < hi

theorem mem_band {s : Shape} {a₀ : Fin s.rank} {lo hi : ℕ} {i : s.Idx} :
    i ∈ band a₀ lo hi ↔ lo ≤ (i a₀ : ℕ) ∧ (i a₀ : ℕ) < hi := by
  simp [band]

/-- A band cut at an interior coordinate. -/
theorem band_union {s : Shape} (a₀ : Fin s.rank) {lo mid hi : ℕ} (h₁ : lo ≤ mid) (h₂ : mid ≤ hi) :
    band a₀ lo hi = band a₀ lo mid ∪ band a₀ mid hi := by
  ext i; simp only [Finset.mem_union, mem_band]; omega

theorem band_disjoint {s : Shape} (a₀ : Fin s.rank) (lo mid hi : ℕ) : Disjoint (band a₀ lo mid) (band a₀ mid hi) := by
  rw [Finset.disjoint_left]; intro i h₁ h₂; rw [mem_band] at h₁ h₂; omega

/-- The band over the whole axis is everything. -/
theorem band_whole {s : Shape} (a₀ : Fin s.rank) : band a₀ 0 (s.size a₀) = Finset.univ := by
  ext i; simp only [mem_band, Finset.mem_univ, iff_true]; exact ⟨Nat.zero_le _, (i a₀).isLt⟩

/-- A unit-stride rectangle that is everything on every axis but `a₀` is a band on `a₀`. -/
theorem set_unit_band {s : Shape} (a₀ : Fin s.rank) {off size : Fin s.rank → ℕ} {inb : ∀ a, off a + size a ≤ s.size a}
    (h : ∀ a, a ≠ a₀ → off a = 0 ∧ size a = s.size a) :
    (Rect.unit (s := s) off size inb).set = band a₀ (off a₀) (off a₀ + size a₀) := by
  ext i
  rw [Rect.mem_set_unit, mem_band]
  constructor
  · intro H; exact H a₀
  · intro H a
    by_cases ha : a = a₀
    · subst ha; exact H
    · obtain ⟨h0, hs⟩ := h a ha
      rw [h0, hs]; exact ⟨Nat.zero_le _, by have := (i a).isLt; omega⟩

/-! ## Some contents on a set of a buffer's elements -/

/-- The elements `I` of the buffer `ℓ` held at share `q`, at some contents. -/
def anyAt (ℓ : Loc nD τ sig) (I : Finset (Idx ℓ)) (q : PosShare TreeShare) : sProp 𝕄 :=
  iprop(∃ f : Buf (Elt F) ℓ, ℓ ↦[I]{q} f)

theorem anyAt_split {ℓ : Loc nD τ sig} {I J : Finset (Idx ℓ)} (h : Disjoint I J) (q : PosShare TreeShare) :
    (anyAt (F := F) ℓ (I ∪ J) q) ⊢ iprop(anyAt (F := F) ℓ I q ∗ anyAt (F := F) ℓ J q) := by
  unfold anyAt
  iintro ⟨%f, H⟩
  ihave H' := (pointsTo_union h).1 $$ H
  icases H' with ⟨H₁, H₂⟩
  isplitl [H₁]
  · iexists f; iexact H₁
  · iexists f; iexact H₂

/-- Disjoint sets held at different contents are their union held at the contents pieced together. -/
theorem anyAt_join {ℓ : Loc nD τ sig} {I J : Finset (Idx ℓ)} (h : Disjoint I J) (q : PosShare TreeShare) :
    iprop(anyAt (F := F) ℓ I q ∗ anyAt (F := F) ℓ J q) ⊢ anyAt (F := F) ℓ (I ∪ J) q := by
  unfold anyAt
  iintro ⟨⟨%f, H₁⟩, ⟨%g, H₂⟩⟩
  iexists (J.piecewise g f)
  iapply (pointsTo_join h)
  isplitl [H₁]
  · iexact H₁
  · iexact H₂

/-- A band held at some contents, cut at an interior coordinate, -/
theorem anyAt_band_split {ℓ : Loc nD τ sig} (a₀ : Fin ℓ.ty.shape.rank) {lo mid hi : ℕ} (h₁ : lo ≤ mid) (h₂ : mid ≤ hi)
    (q : PosShare TreeShare) :
    anyAt (F := F) ℓ (band a₀ lo hi) q ⊢ iprop(anyAt (F := F) ℓ (band a₀ lo mid) q ∗ anyAt (F := F) ℓ (band a₀ mid hi) q) := by
  rw [band_union a₀ h₁ h₂]; exact anyAt_split (band_disjoint a₀ lo mid hi) q

/-- and two adjacent bands put together. -/
theorem anyAt_band_join {ℓ : Loc nD τ sig} (a₀ : Fin ℓ.ty.shape.rank) {lo mid hi : ℕ} (h₁ : lo ≤ mid) (h₂ : mid ≤ hi)
    (q : PosShare TreeShare) :
    iprop(anyAt (F := F) ℓ (band a₀ lo mid) q ∗ anyAt (F := F) ℓ (band a₀ mid hi) q) ⊢ anyAt (F := F) ℓ (band a₀ lo hi) q := by
  rw [band_union a₀ h₁ h₂]; exact anyAt_join (band_disjoint a₀ lo mid hi) q

/-! ## The chunks' bands: eleven tile 608 coordinates, the first seven tile 416 -/

theorem bands11_split {ℓ : Loc nD τ sig} (a₀ : Fin ℓ.ty.shape.rank) (q : PosShare TreeShare) :
    anyAt (F := F) ℓ (band a₀ 0 608) q ⊢
    iprop(anyAt (F := F) ℓ (band a₀ 0 64) q
      ∗ anyAt (F := F) ℓ (band a₀ 64 128) q
      ∗ anyAt (F := F) ℓ (band a₀ 128 192) q
      ∗ anyAt (F := F) ℓ (band a₀ 192 256) q
      ∗ anyAt (F := F) ℓ (band a₀ 256 320) q
      ∗ anyAt (F := F) ℓ (band a₀ 320 384) q
      ∗ anyAt (F := F) ℓ (band a₀ 384 416) q
      ∗ anyAt (F := F) ℓ (band a₀ 416 480) q
      ∗ anyAt (F := F) ℓ (band a₀ 480 512) q
      ∗ anyAt (F := F) ℓ (band a₀ 512 576) q
      ∗ anyAt (F := F) ℓ (band a₀ 576 608) q) :=
  (anyAt_band_split a₀ (lo := 0) (mid := 64) (hi := 608) (by decide) (by decide) q).trans <| sep_mono .rfl <|
  (anyAt_band_split a₀ (lo := 64) (mid := 128) (hi := 608) (by decide) (by decide) q).trans <| sep_mono .rfl <|
  (anyAt_band_split a₀ (lo := 128) (mid := 192) (hi := 608) (by decide) (by decide) q).trans <| sep_mono .rfl <|
  (anyAt_band_split a₀ (lo := 192) (mid := 256) (hi := 608) (by decide) (by decide) q).trans <| sep_mono .rfl <|
  (anyAt_band_split a₀ (lo := 256) (mid := 320) (hi := 608) (by decide) (by decide) q).trans <| sep_mono .rfl <|
  (anyAt_band_split a₀ (lo := 320) (mid := 384) (hi := 608) (by decide) (by decide) q).trans <| sep_mono .rfl <|
  (anyAt_band_split a₀ (lo := 384) (mid := 416) (hi := 608) (by decide) (by decide) q).trans <| sep_mono .rfl <|
  (anyAt_band_split a₀ (lo := 416) (mid := 480) (hi := 608) (by decide) (by decide) q).trans <| sep_mono .rfl <|
  (anyAt_band_split a₀ (lo := 480) (mid := 512) (hi := 608) (by decide) (by decide) q).trans <| sep_mono .rfl <|
  (anyAt_band_split a₀ (lo := 512) (mid := 576) (hi := 608) (by decide) (by decide) q)

theorem bands11_join {ℓ : Loc nD τ sig} (a₀ : Fin ℓ.ty.shape.rank) (q : PosShare TreeShare) :
    iprop(anyAt (F := F) ℓ (band a₀ 0 64) q
      ∗ anyAt (F := F) ℓ (band a₀ 64 128) q
      ∗ anyAt (F := F) ℓ (band a₀ 128 192) q
      ∗ anyAt (F := F) ℓ (band a₀ 192 256) q
      ∗ anyAt (F := F) ℓ (band a₀ 256 320) q
      ∗ anyAt (F := F) ℓ (band a₀ 320 384) q
      ∗ anyAt (F := F) ℓ (band a₀ 384 416) q
      ∗ anyAt (F := F) ℓ (band a₀ 416 480) q
      ∗ anyAt (F := F) ℓ (band a₀ 480 512) q
      ∗ anyAt (F := F) ℓ (band a₀ 512 576) q
      ∗ anyAt (F := F) ℓ (band a₀ 576 608) q)
    ⊢ anyAt (F := F) ℓ (band a₀ 0 608) q :=
  ((sep_mono .rfl ((sep_mono .rfl ((sep_mono .rfl ((sep_mono .rfl ((sep_mono .rfl ((sep_mono .rfl ((sep_mono .rfl ((sep_mono .rfl ((sep_mono .rfl (anyAt_band_join a₀ (lo := 512) (mid := 576) (hi := 608) (by decide) (by decide) q)).trans
    (anyAt_band_join a₀ (lo := 480) (mid := 512) (hi := 608) (by decide) (by decide) q))).trans
    (anyAt_band_join a₀ (lo := 416) (mid := 480) (hi := 608) (by decide) (by decide) q))).trans
    (anyAt_band_join a₀ (lo := 384) (mid := 416) (hi := 608) (by decide) (by decide) q))).trans
    (anyAt_band_join a₀ (lo := 320) (mid := 384) (hi := 608) (by decide) (by decide) q))).trans
    (anyAt_band_join a₀ (lo := 256) (mid := 320) (hi := 608) (by decide) (by decide) q))).trans
    (anyAt_band_join a₀ (lo := 192) (mid := 256) (hi := 608) (by decide) (by decide) q))).trans
    (anyAt_band_join a₀ (lo := 128) (mid := 192) (hi := 608) (by decide) (by decide) q))).trans
    (anyAt_band_join a₀ (lo := 64) (mid := 128) (hi := 608) (by decide) (by decide) q))).trans
    (anyAt_band_join a₀ (lo := 0) (mid := 64) (hi := 608) (by decide) (by decide) q))

theorem bands7_split {ℓ : Loc nD τ sig} (a₀ : Fin ℓ.ty.shape.rank) (q : PosShare TreeShare) :
    anyAt (F := F) ℓ (band a₀ 0 416) q ⊢
    iprop(anyAt (F := F) ℓ (band a₀ 0 64) q
      ∗ anyAt (F := F) ℓ (band a₀ 64 128) q
      ∗ anyAt (F := F) ℓ (band a₀ 128 192) q
      ∗ anyAt (F := F) ℓ (band a₀ 192 256) q
      ∗ anyAt (F := F) ℓ (band a₀ 256 320) q
      ∗ anyAt (F := F) ℓ (band a₀ 320 384) q
      ∗ anyAt (F := F) ℓ (band a₀ 384 416) q) :=
  (anyAt_band_split a₀ (lo := 0) (mid := 64) (hi := 416) (by decide) (by decide) q).trans <| sep_mono .rfl <|
  (anyAt_band_split a₀ (lo := 64) (mid := 128) (hi := 416) (by decide) (by decide) q).trans <| sep_mono .rfl <|
  (anyAt_band_split a₀ (lo := 128) (mid := 192) (hi := 416) (by decide) (by decide) q).trans <| sep_mono .rfl <|
  (anyAt_band_split a₀ (lo := 192) (mid := 256) (hi := 416) (by decide) (by decide) q).trans <| sep_mono .rfl <|
  (anyAt_band_split a₀ (lo := 256) (mid := 320) (hi := 416) (by decide) (by decide) q).trans <| sep_mono .rfl <|
  (anyAt_band_split a₀ (lo := 320) (mid := 384) (hi := 416) (by decide) (by decide) q)

theorem bands7_join {ℓ : Loc nD τ sig} (a₀ : Fin ℓ.ty.shape.rank) (q : PosShare TreeShare) :
    iprop(anyAt (F := F) ℓ (band a₀ 0 64) q
      ∗ anyAt (F := F) ℓ (band a₀ 64 128) q
      ∗ anyAt (F := F) ℓ (band a₀ 128 192) q
      ∗ anyAt (F := F) ℓ (band a₀ 192 256) q
      ∗ anyAt (F := F) ℓ (band a₀ 256 320) q
      ∗ anyAt (F := F) ℓ (band a₀ 320 384) q
      ∗ anyAt (F := F) ℓ (band a₀ 384 416) q)
    ⊢ anyAt (F := F) ℓ (band a₀ 0 416) q :=
  ((sep_mono .rfl ((sep_mono .rfl ((sep_mono .rfl ((sep_mono .rfl ((sep_mono .rfl (anyAt_band_join a₀ (lo := 320) (mid := 384) (hi := 416) (by decide) (by decide) q)).trans
    (anyAt_band_join a₀ (lo := 256) (mid := 320) (hi := 416) (by decide) (by decide) q))).trans
    (anyAt_band_join a₀ (lo := 192) (mid := 256) (hi := 416) (by decide) (by decide) q))).trans
    (anyAt_band_join a₀ (lo := 128) (mid := 192) (hi := 416) (by decide) (by decide) q))).trans
    (anyAt_band_join a₀ (lo := 64) (mid := 128) (hi := 416) (by decide) (by decide) q))).trans
    (anyAt_band_join a₀ (lo := 0) (mid := 64) (hi := 416) (by decide) (by decide) q))

/-! ## A whole buffer and its row-range slices as bands -/

/-- A buffer whole, at some contents, is the band over all of an axis. -/
theorem whole_eq_band (ℓ : Loc nD τ sig) (a₀ : Fin ℓ.ty.shape.rank) (q : PosShare TreeShare) :
    (iprop(∃ f : Buf (Elt F) ℓ, ℓ ↦{q} f) : sProp 𝕄) = anyAt (F := F) ℓ (band a₀ 0 (ℓ.ty.shape.size a₀)) q := by
  unfold anyAt; rw [band_whole]

/-- A slice of a whole buffer that is everything on every axis but `a₀`, held at some contents, is its band so held. -/
theorem heldAny_slice_band (o : Dev nD) (b : Ref sig .tc) (a₀ : Fin b.ty.shape.rank) {off size : Fin b.ty.shape.rank → ℕ}
    {inb : ∀ a, off a + size a ≤ b.ty.shape.size a} (hr : ∀ a, (Rect.unit (s := b.ty.shape) off size inb).stride a = 1)
    (q : PosShare TreeShare) (h : ∀ a, a ≠ a₀ → off a = 0 ∧ size a = b.ty.shape.size a) :
    heldAny (F := F) o ((Memref.whole b).slice (Rect.unit (s := b.ty.shape) off size inb) hr) q
      = anyAt (F := F) ((o : Thread nD τ).loc b) (band a₀ (off a₀) (off a₀ + size a₀)) q := by
  unfold heldAny anyAt
  show (iprop(∃ f : Buf (Elt F) ((o : Thread nD τ).loc b),
      (o : Thread nD τ).loc b ↦[((View.whole b).slice (Rect.unit (s := b.ty.shape) off size inb)).set]{q} f) : sProp 𝕄) = _
  rw [View.set_slice_whole, set_unit_band a₀ h]

/-! ## Each chunk's slice is the band of its rows -/

theorem xs0_band (o : Dev nD) (q : PosShare TreeShare) :
    heldAny (F := F) o xs0 q = anyAt (F := F) ((o : Thread nD τ).loc cc0_scratch1) (band (0 : Fin 2) 0 64) q :=
  heldAny_slice_band o cc0_scratch1 (0 : Fin 2) (fun _ => rfl) q (by decide)
theorem xs1_band (o : Dev nD) (q : PosShare TreeShare) :
    heldAny (F := F) o xs1 q = anyAt (F := F) ((o : Thread nD τ).loc cc0_scratch1) (band (0 : Fin 2) 64 128) q :=
  heldAny_slice_band o cc0_scratch1 (0 : Fin 2) (fun _ => rfl) q (by decide)
theorem xs2_band (o : Dev nD) (q : PosShare TreeShare) :
    heldAny (F := F) o xs2 q = anyAt (F := F) ((o : Thread nD τ).loc cc0_scratch1) (band (0 : Fin 2) 128 192) q :=
  heldAny_slice_band o cc0_scratch1 (0 : Fin 2) (fun _ => rfl) q (by decide)
theorem xs3_band (o : Dev nD) (q : PosShare TreeShare) :
    heldAny (F := F) o xs3 q = anyAt (F := F) ((o : Thread nD τ).loc cc0_scratch1) (band (0 : Fin 2) 192 256) q :=
  heldAny_slice_band o cc0_scratch1 (0 : Fin 2) (fun _ => rfl) q (by decide)
theorem xs4_band (o : Dev nD) (q : PosShare TreeShare) :
    heldAny (F := F) o xs4 q = anyAt (F := F) ((o : Thread nD τ).loc cc0_scratch1) (band (0 : Fin 2) 256 320) q :=
  heldAny_slice_band o cc0_scratch1 (0 : Fin 2) (fun _ => rfl) q (by decide)
theorem xs5_band (o : Dev nD) (q : PosShare TreeShare) :
    heldAny (F := F) o xs5 q = anyAt (F := F) ((o : Thread nD τ).loc cc0_scratch1) (band (0 : Fin 2) 320 384) q :=
  heldAny_slice_band o cc0_scratch1 (0 : Fin 2) (fun _ => rfl) q (by decide)
theorem xs6_band (o : Dev nD) (q : PosShare TreeShare) :
    heldAny (F := F) o xs6 q = anyAt (F := F) ((o : Thread nD τ).loc cc0_scratch1) (band (0 : Fin 2) 384 416) q :=
  heldAny_slice_band o cc0_scratch1 (0 : Fin 2) (fun _ => rfl) q (by decide)
theorem xs7_band (o : Dev nD) (q : PosShare TreeShare) :
    heldAny (F := F) o xs7 q = anyAt (F := F) ((o : Thread nD τ).loc cc0_scratch1) (band (0 : Fin 2) 416 480) q :=
  heldAny_slice_band o cc0_scratch1 (0 : Fin 2) (fun _ => rfl) q (by decide)
theorem xs8_band (o : Dev nD) (q : PosShare TreeShare) :
    heldAny (F := F) o xs8 q = anyAt (F := F) ((o : Thread nD τ).loc cc0_scratch1) (band (0 : Fin 2) 480 512) q :=
  heldAny_slice_band o cc0_scratch1 (0 : Fin 2) (fun _ => rfl) q (by decide)
theorem xs9_band (o : Dev nD) (q : PosShare TreeShare) :
    heldAny (F := F) o xs9 q = anyAt (F := F) ((o : Thread nD τ).loc cc0_scratch1) (band (0 : Fin 2) 512 576) q :=
  heldAny_slice_band o cc0_scratch1 (0 : Fin 2) (fun _ => rfl) q (by decide)
theorem xs10_band (o : Dev nD) (q : PosShare TreeShare) :
    heldAny (F := F) o xs10 q = anyAt (F := F) ((o : Thread nD τ).loc cc0_scratch1) (band (0 : Fin 2) 576 608) q :=
  heldAny_slice_band o cc0_scratch1 (0 : Fin 2) (fun _ => rfl) q (by decide)

theorem xr0_band (o : Dev nD) (q : PosShare TreeShare) :
    heldAny (F := F) o xr0 q = anyAt (F := F) ((o : Thread nD τ).loc cc0_scratch2) (band (0 : Fin 2) 0 64) q :=
  heldAny_slice_band o cc0_scratch2 (0 : Fin 2) (fun _ => rfl) q (by decide)
theorem xr1_band (o : Dev nD) (q : PosShare TreeShare) :
    heldAny (F := F) o xr1 q = anyAt (F := F) ((o : Thread nD τ).loc cc0_scratch2) (band (0 : Fin 2) 64 128) q :=
  heldAny_slice_band o cc0_scratch2 (0 : Fin 2) (fun _ => rfl) q (by decide)
theorem xr2_band (o : Dev nD) (q : PosShare TreeShare) :
    heldAny (F := F) o xr2 q = anyAt (F := F) ((o : Thread nD τ).loc cc0_scratch2) (band (0 : Fin 2) 128 192) q :=
  heldAny_slice_band o cc0_scratch2 (0 : Fin 2) (fun _ => rfl) q (by decide)
theorem xr3_band (o : Dev nD) (q : PosShare TreeShare) :
    heldAny (F := F) o xr3 q = anyAt (F := F) ((o : Thread nD τ).loc cc0_scratch2) (band (0 : Fin 2) 192 256) q :=
  heldAny_slice_band o cc0_scratch2 (0 : Fin 2) (fun _ => rfl) q (by decide)
theorem xr4_band (o : Dev nD) (q : PosShare TreeShare) :
    heldAny (F := F) o xr4 q = anyAt (F := F) ((o : Thread nD τ).loc cc0_scratch2) (band (0 : Fin 2) 256 320) q :=
  heldAny_slice_band o cc0_scratch2 (0 : Fin 2) (fun _ => rfl) q (by decide)
theorem xr5_band (o : Dev nD) (q : PosShare TreeShare) :
    heldAny (F := F) o xr5 q = anyAt (F := F) ((o : Thread nD τ).loc cc0_scratch2) (band (0 : Fin 2) 320 384) q :=
  heldAny_slice_band o cc0_scratch2 (0 : Fin 2) (fun _ => rfl) q (by decide)
theorem xr6_band (o : Dev nD) (q : PosShare TreeShare) :
    heldAny (F := F) o xr6 q = anyAt (F := F) ((o : Thread nD τ).loc cc0_scratch2) (band (0 : Fin 2) 384 416) q :=
  heldAny_slice_band o cc0_scratch2 (0 : Fin 2) (fun _ => rfl) q (by decide)
theorem xr7_band (o : Dev nD) (q : PosShare TreeShare) :
    heldAny (F := F) o xr7 q = anyAt (F := F) ((o : Thread nD τ).loc cc0_scratch2) (band (0 : Fin 2) 416 480) q :=
  heldAny_slice_band o cc0_scratch2 (0 : Fin 2) (fun _ => rfl) q (by decide)
theorem xr8_band (o : Dev nD) (q : PosShare TreeShare) :
    heldAny (F := F) o xr8 q = anyAt (F := F) ((o : Thread nD τ).loc cc0_scratch2) (band (0 : Fin 2) 480 512) q :=
  heldAny_slice_band o cc0_scratch2 (0 : Fin 2) (fun _ => rfl) q (by decide)
theorem xr9_band (o : Dev nD) (q : PosShare TreeShare) :
    heldAny (F := F) o xr9 q = anyAt (F := F) ((o : Thread nD τ).loc cc0_scratch2) (band (0 : Fin 2) 512 576) q :=
  heldAny_slice_band o cc0_scratch2 (0 : Fin 2) (fun _ => rfl) q (by decide)
theorem xr10_band (o : Dev nD) (q : PosShare TreeShare) :
    heldAny (F := F) o xr10 q = anyAt (F := F) ((o : Thread nD τ).loc cc0_scratch2) (band (0 : Fin 2) 576 608) q :=
  heldAny_slice_band o cc0_scratch2 (0 : Fin 2) (fun _ => rfl) q (by decide)

theorem yr0_band (o : Dev nD) (q : PosShare TreeShare) :
    heldAny (F := F) o yr0 q = anyAt (F := F) ((o : Thread nD τ).loc cc0_scratch3) (band (0 : Fin 2) 0 64) q :=
  heldAny_slice_band o cc0_scratch3 (0 : Fin 2) (fun _ => rfl) q (by decide)
theorem yr1_band (o : Dev nD) (q : PosShare TreeShare) :
    heldAny (F := F) o yr1 q = anyAt (F := F) ((o : Thread nD τ).loc cc0_scratch3) (band (0 : Fin 2) 64 128) q :=
  heldAny_slice_band o cc0_scratch3 (0 : Fin 2) (fun _ => rfl) q (by decide)
theorem yr2_band (o : Dev nD) (q : PosShare TreeShare) :
    heldAny (F := F) o yr2 q = anyAt (F := F) ((o : Thread nD τ).loc cc0_scratch3) (band (0 : Fin 2) 128 192) q :=
  heldAny_slice_band o cc0_scratch3 (0 : Fin 2) (fun _ => rfl) q (by decide)
theorem yr3_band (o : Dev nD) (q : PosShare TreeShare) :
    heldAny (F := F) o yr3 q = anyAt (F := F) ((o : Thread nD τ).loc cc0_scratch3) (band (0 : Fin 2) 192 256) q :=
  heldAny_slice_band o cc0_scratch3 (0 : Fin 2) (fun _ => rfl) q (by decide)
theorem yr4_band (o : Dev nD) (q : PosShare TreeShare) :
    heldAny (F := F) o yr4 q = anyAt (F := F) ((o : Thread nD τ).loc cc0_scratch3) (band (0 : Fin 2) 256 320) q :=
  heldAny_slice_band o cc0_scratch3 (0 : Fin 2) (fun _ => rfl) q (by decide)
theorem yr5_band (o : Dev nD) (q : PosShare TreeShare) :
    heldAny (F := F) o yr5 q = anyAt (F := F) ((o : Thread nD τ).loc cc0_scratch3) (band (0 : Fin 2) 320 384) q :=
  heldAny_slice_band o cc0_scratch3 (0 : Fin 2) (fun _ => rfl) q (by decide)
theorem yr6_band (o : Dev nD) (q : PosShare TreeShare) :
    heldAny (F := F) o yr6 q = anyAt (F := F) ((o : Thread nD τ).loc cc0_scratch3) (band (0 : Fin 2) 384 416) q :=
  heldAny_slice_band o cc0_scratch3 (0 : Fin 2) (fun _ => rfl) q (by decide)

/-! ## The three buffers: whole, and chunk by chunk -/

theorem xs_split (o : Dev nD) :
    iprop(∃ f : Buf (Elt F) ((o : Thread nD τ).loc cc0_scratch1), ((o : Thread nD τ).loc cc0_scratch1) ↦{fullShare} f) ⊢
    (iprop(heldAny o xs0 fullShare ∗ heldAny o xs1 fullShare ∗ heldAny o xs2 fullShare ∗ heldAny o xs3 fullShare ∗ heldAny o xs4 fullShare ∗ heldAny o xs5 fullShare ∗ heldAny o xs6 fullShare ∗ heldAny o xs7 fullShare ∗ heldAny o xs8 fullShare ∗ heldAny o xs9 fullShare ∗ heldAny o xs10 fullShare) : sProp 𝕄) := by
  rw [xs0_band o, xs1_band o, xs2_band o, xs3_band o, xs4_band o, xs5_band o, xs6_band o, xs7_band o, xs8_band o, xs9_band o, xs10_band o]
  rw [whole_eq_band ((o : Thread nD τ).loc cc0_scratch1) (0 : Fin 2) fullShare]
  exact bands11_split (ℓ := (o : Thread nD τ).loc cc0_scratch1) (0 : Fin 2) fullShare

theorem xr_split (o : Dev nD) :
    iprop(∃ f : Buf (Elt F) ((o : Thread nD τ).loc cc0_scratch2), ((o : Thread nD τ).loc cc0_scratch2) ↦{fullShare} f) ⊢
    (xrAll o : sProp 𝕄) := by
  unfold xrAll
  rw [xr0_band o, xr1_band o, xr2_band o, xr3_band o, xr4_band o, xr5_band o, xr6_band o, xr7_band o, xr8_band o, xr9_band o, xr10_band o]
  rw [whole_eq_band ((o : Thread nD τ).loc cc0_scratch2) (0 : Fin 2) fullShare]
  exact bands11_split (ℓ := (o : Thread nD τ).loc cc0_scratch2) (0 : Fin 2) fullShare

theorem yr_split (o : Dev nD) :
    iprop(∃ f : Buf (Elt F) ((o : Thread nD τ).loc cc0_scratch3), ((o : Thread nD τ).loc cc0_scratch3) ↦{fullShare} f) ⊢
    (yrAll o : sProp 𝕄) := by
  unfold yrAll
  rw [yr0_band o, yr1_band o, yr2_band o, yr3_band o, yr4_band o, yr5_band o, yr6_band o]
  rw [whole_eq_band ((o : Thread nD τ).loc cc0_scratch3) (0 : Fin 2) fullShare]
  exact bands7_split (ℓ := (o : Thread nD τ).loc cc0_scratch3) (0 : Fin 2) fullShare

theorem xs_join (o : Dev nD) :
    (iprop(heldAny o xs0 fullShare ∗ heldAny o xs1 fullShare ∗ heldAny o xs2 fullShare ∗ heldAny o xs3 fullShare ∗ heldAny o xs4 fullShare ∗ heldAny o xs5 fullShare ∗ heldAny o xs6 fullShare ∗ heldAny o xs7 fullShare ∗ heldAny o xs8 fullShare ∗ heldAny o xs9 fullShare ∗ heldAny o xs10 fullShare) : sProp 𝕄) ⊢
    iprop(∃ f : Buf (Elt F) ((o : Thread nD τ).loc cc0_scratch1), ((o : Thread nD τ).loc cc0_scratch1) ↦{fullShare} f) := by
  rw [xs0_band o, xs1_band o, xs2_band o, xs3_band o, xs4_band o, xs5_band o, xs6_band o, xs7_band o, xs8_band o, xs9_band o, xs10_band o]
  rw [whole_eq_band ((o : Thread nD τ).loc cc0_scratch1) (0 : Fin 2) fullShare]
  exact bands11_join (ℓ := (o : Thread nD τ).loc cc0_scratch1) (0 : Fin 2) fullShare

theorem xr_join (o : Dev nD) :
    (xrAll o : sProp 𝕄) ⊢
    iprop(∃ f : Buf (Elt F) ((o : Thread nD τ).loc cc0_scratch2), ((o : Thread nD τ).loc cc0_scratch2) ↦{fullShare} f) := by
  unfold xrAll
  rw [xr0_band o, xr1_band o, xr2_band o, xr3_band o, xr4_band o, xr5_band o, xr6_band o, xr7_band o, xr8_band o, xr9_band o, xr10_band o]
  rw [whole_eq_band ((o : Thread nD τ).loc cc0_scratch2) (0 : Fin 2) fullShare]
  exact bands11_join (ℓ := (o : Thread nD τ).loc cc0_scratch2) (0 : Fin 2) fullShare

theorem yr_join (o : Dev nD) :
    (yrAll o : sProp 𝕄) ⊢
    iprop(∃ f : Buf (Elt F) ((o : Thread nD τ).loc cc0_scratch3), ((o : Thread nD τ).loc cc0_scratch3) ↦{fullShare} f) := by
  unfold yrAll
  rw [yr0_band o, yr1_band o, yr2_band o, yr3_band o, yr4_band o, yr5_band o, yr6_band o]
  rw [whole_eq_band ((o : Thread nD τ).loc cc0_scratch3) (0 : Fin 2) fullShare]
  exact bands7_join (ℓ := (o : Thread nD τ).loc cc0_scratch3) (0 : Fin 2) fullShare

/-! ## Reading, halving -/

/-- Held at contents reading as `v` is held at some contents. -/
theorem heldRead_any {sp : Space} {s : Shape} {e : EltTy} (o : Dev nD) (M : Memref sig .tc sp s e) (q : PosShare TreeShare)
    (v : s.Idx → Elt F e) : heldRead (F := F) o M q v ⊢ heldAny (F := F) o M q := by
  unfold heldRead heldAny
  iintro ⟨%f, -, H⟩
  iexists f
  iexact H

/-- A full share of a memref's elements is its two halves, at the same contents. -/
theorem held_halve {sp : Space} {s : Shape} {e : EltTy} (o : Dev nD) (M : Memref sig .tc sp s e)
    (f : Buf (Elt F) (M.view.loc (o : Thread nD τ))) :
    (M.view.loc (o : Thread nD τ) ↦[M.view.set]{fullShare} f : sProp 𝕄) ⊣⊢
    iprop((M.view.loc (o : Thread nD τ) ↦[M.view.set]{fullShare.left} f) ∗ (M.view.loc (o : Thread nD τ) ↦[M.view.set]{fullShare.right} f)) :=
  pointsTo_share (PosShare.mem_left_op_right fullShare)

/-- The left half at some contents and the right half at `f`: the two holders agree on every element, so the whole is held
    (at `f`). -/
theorem held_unhalve {sp : Space} {s : Shape} {e : EltTy} (o : Dev nD) (M : Memref sig .tc sp s e)
    (f : Buf (Elt F) (M.view.loc (o : Thread nD τ))) :
    iprop(heldAny (F := F) o M fullShare.left ∗ (M.view.loc (o : Thread nD τ) ↦[M.view.set]{fullShare.right} f)) ⊢
    heldAny (F := F) o M fullShare := by
  unfold heldAny
  iintro ⟨⟨%g, H₁⟩, H₂⟩
  ihave Hag := (persistent_entails_right pointsTo_agree) $$ [H₁ H₂]
  · isplitl [H₁]
    · iexact H₁
    · iexact H₂
  icases Hag with ⟨%hag, H₁, H₂⟩
  ihave H₁' := (Entails.of_eq (pointsTo_congr (f := g) (g := f) fun i hi => (hag i (Finset.mem_inter.mpr ⟨hi, hi⟩)).1)) $$ H₁
  iexists f
  iapply (held_halve o M f).2
  isplitl [H₁']
  · iexact H₁'
  · iexact H₂

/-- info: 'Cert.KernelIdeal.AR.xs_split' depends on axioms: [propext, Classical.choice, Quot.sound] -/
#guard_msgs in #print axioms xs_split

/-- info: 'Cert.KernelIdeal.AR.xr_split' depends on axioms: [propext, Classical.choice, Quot.sound] -/
#guard_msgs in #print axioms xr_split

/-- info: 'Cert.KernelIdeal.AR.yr_split' depends on axioms: [propext, Classical.choice, Quot.sound] -/
#guard_msgs in #print axioms yr_split

/-- info: 'Cert.KernelIdeal.AR.xs_join' depends on axioms: [propext, Classical.choice, Quot.sound] -/
#guard_msgs in #print axioms xs_join

/-- info: 'Cert.KernelIdeal.AR.xr_join' depends on axioms: [propext, Classical.choice, Quot.sound] -/
#guard_msgs in #print axioms xr_join

/-- info: 'Cert.KernelIdeal.AR.yr_join' depends on axioms: [propext, Classical.choice, Quot.sound] -/
#guard_msgs in #print axioms yr_join

/-- info: 'Cert.KernelIdeal.AR.heldRead_any' depends on axioms: [propext, Classical.choice, Quot.sound] -/
#guard_msgs in #print axioms heldRead_any

/-- info: 'Cert.KernelIdeal.AR.held_halve' depends on axioms: [propext, Classical.choice, Quot.sound] -/
#guard_msgs in #print axioms held_halve

/-- info: 'Cert.KernelIdeal.AR.held_unhalve' depends on axioms: [propext, Classical.choice, Quot.sound] -/
#guard_msgs in #print axioms held_unhalve

end Cert.KernelIdeal.AR

end
-- ==== Proof.Seg1b.lean ====
import proofs.«900705_g7700000000000706_dist_ar_v7x_xyz2x2x4_x_m1024_n512_bf16_1_alg».proof.Proof.States0
import proofs.«900705_g7700000000000706_dist_ar_v7x_xyz2x2x4_x_m1024_n512_bf16_1_alg».proof.Proof.Regions

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

private theorem step_store_sl (c : Dev nD) {S0 : Shape} {e : EltTy} {cs : CoreSpace} (M : Memref sig .tc (.core cs) S0 e) (R : Rect S0) (w : R.shape.Idx → Elt F e)
    {hx : (M.access R).Stores Finset.univ} {hm : (Finset.univ : Finset R.shape.Idx) = Finset.univ ∨ ∀ a, R.stride a = 1}
    (f : Buf (Elt F) ((M.access R).loc (c : Thread nD τ))) {α : Type} {Q : α → sProp 𝕄} {k : PUnit → Prog (TpuEff nD τ sig (Elt F) Λ₀ .tc) α} :
    ((M.access R).loc (c : Thread nD τ) ↦[(M.access R).set]{fullShare} f : sProp 𝕄)
      ⊢ iprop((∀ f' : Buf (Elt F) ((M.access R).loc (c : Thread nD τ)), ⌜(M.access R).read (Elt F) f' = w⌝ -∗ ((M.access R).loc (c : Thread nD τ) ↦[(M.access R).set]{fullShare} f')
              -∗ wp frame (wpE (defs₀ (F := F)) 𝒱₀ (c : Thread nD τ) none) Set.univ (k ⟨⟩) Q)
          -∗ wp frame (wpE (defs₀ (F := F)) 𝒱₀ (c : Thread nD τ) none) Set.univ (.op (.store M R w Finset.univ hx hm) k) Q) := by
  iintro H Hk
  iapply (wp_store 𝒱₀ (c : Thread nD τ) none Set.univ (m := M) (r := R) (Mk := Finset.univ) (S := (M.access R).set) (by rw [View.setOn_univ])) $$ H
  iintro H
  iapply Hk $$ [] H
  ipureintro
  exact View.read_write_univ _ _

theorem part2_spec (K : Dev nD × Fin 39 → ℕ) (c : Dev nD) (v2 v5 v8 v9 v10 v11 v13 : BitVec 32)
    (W : Waits sig Unit) (Ψ : sProp 𝕄) :
    iprop(records m K ∗ levAts L lv ∗ owes (c : Thread nD τ) (OxUp c 11) W ∗ xvP m c ∗ heldAny c xs0 fullShare ∗ heldAny c xs1 fullShare ∗ heldAny (px c) xr0 fullShare ∗ tkD c 2 ∗ tkD (px c) 13
        ∗ (((∃ W', owes (c : Thread nD τ) (OxUp c 10) W') ∗ xvP m c ∗ heldRead c xs1 fullShare (sx1 m c) ∗ crD c 2) -∗ Ψ))
      ⊢ wp frame (wpE (defs₀ (F := F)) 𝒱₀ c none) Set.univ (onWhole k0_part2 c v5 v8 v9 v11) (fun _ => Ψ) := by
  simp only [onWhole, k0_part2_eq_skeleton]; unfold k0_part2_skel
  simp only [Prog.lift, Prog.bind_op, Prog.bind_ret, Prog.pure_eq_ret]
  unfold xvP crD tkD
  iintro ⟨#HR, #Hlev, HO, Hxv, Hq0, Hq1, Hxr0, HtS0, HtR0, Hk⟩
  ihave Hq0' := (heldAny_open c xs0 fullShare) $$ Hq0
  icases Hq0' with ⟨%s0, Hs0⟩
  ihave Hq1' := (heldAny_open c xs1 fullShare) $$ Hq1
  icases Hq1' with ⟨%s1, Hs1⟩
  have eS0 : semAt cc0_scratch5 0 inb_S11_S1_0 = dI 2 := by decide
  have eR0 : semAt cc0_scratch6 0 inb_S11_S1_0 = dI 13 := by decide
  simp only [eS0, eR0]
  iapply (load_whole c xvM (View.set_whole _)) $$ Hxv; iintro Hxv
  iapply (wp_load 𝒱₀ (c : Thread nD τ) none Set.univ (m := xsM) (S := xs0.view.set) (View.set_slice _ _).symm.subset) $$ Hs0; iintro Hs0
  iapply (step_store_sl c xsM (Rect.unit (s := S608x512) ![0, 0] S64x512.size inb_S608x512_S64x512_0_0) _ s0) $$ Hs0; iintro %t0 %ht0' Hs0
  have ht0 : xs0.view.read (Elt F) t0 = sx0 m c := ht0'
  iapply (send_chunk m K c (px c) _ (Fin.ext (k0_dev3_eq c)) xs0 xr0 2 13 fullShare t0 _ _ ht0 (OxUp c 11) (OxUp c 10) rfl W rfl rfl rfl rfl (by rw [px_px])) $$ HR Hs0 Hxr0 HO HtS0 HtR0
  iintro ⟨Hcr0, HO⟩
  iapply (load_whole c xvM (View.set_whole _)) $$ Hxv; iintro Hxv
  iapply (wp_load 𝒱₀ (c : Thread nD τ) none Set.univ (m := xsM) (S := xs1.view.set) (View.set_slice _ _).symm.subset) $$ Hs1; iintro Hs1
  iapply (step_store_sl c xsM (Rect.unit (s := S608x512) ![64, 0] S64x512.size inb_S608x512_S64x512_64_0) _ s1) $$ Hs1; iintro %t1 %ht1' Hs1
  have ht1 : xs1.view.read (Elt F) t1 = sx1 m c := ht1'
  rw [wp_ret]; imodintro
  iapply Hk
  isplitl [HO]
  · iexists _; iexact HO
  isplitl [Hxv]
  · iexact Hxv
  isplitl [Hs1]
  · iapply (heldRead_close c xs1 fullShare (sx1 m c)); iexists t1; isplitr; · ipureintro; exact ht1
    iexact Hs1
  iexact Hcr0

theorem part3_spec (K : Dev nD × Fin 39 → ℕ) (c : Dev nD) (v2 v5 v8 v9 v10 v11 v13 : BitVec 32)
    (W : Waits sig Unit) (Ψ : (Σ' (v92 : BitVec 32), BitVec 32) → sProp 𝕄) :
    iprop(records m K ∗ levAts L lv ∗ owes (c : Thread nD τ) (OxUp c 10) W ∗ xvP m c ∗ heldRead c xs1 fullShare (sx1 m c) ∗ heldAny c xs2 fullShare ∗ heldAny c xs3 fullShare ∗ heldAny (px c) xr1 fullShare ∗ tkD c 3 ∗ tkD (px c) 14 ∗ heldAny (px c) xr2 fullShare ∗ tkD c 4 ∗ tkD (px c) 15
        ∗ (((∃ W', owes (c : Thread nD τ) (OxUp c 8) W') ∗ xvP m c ∗ heldRead c xs3 fullShare (sx3 m c) ∗ crD c 3 ∗ crD c 4) -∗ Ψ ⟨Scalar.addi 0#32 (Scalar.muli v9 8#32), 4#32⟩))
      ⊢ wp frame (wpE (defs₀ (F := F)) 𝒱₀ c none) Set.univ (onWhole k0_part3 c v5 v8 v9 v11) (Ψ) := by
  simp only [onWhole, k0_part3_eq_skeleton]; unfold k0_part3_skel
  simp only [Prog.lift, Prog.bind_op, Prog.bind_ret, Prog.pure_eq_ret]
  unfold xvP crD tkD
  iintro ⟨#HR, #Hlev, HO, Hxv, Hq1, Hq2, Hq3, Hxr1, HtS1, HtR1, Hxr2, HtS2, HtR2, Hk⟩
  ihave Hq1' := (heldRead_open c xs1 fullShare (sx1 m c)) $$ Hq1
  icases Hq1' with ⟨%t1, %ht1, Hs1⟩
  ihave Hq2' := (heldAny_open c xs2 fullShare) $$ Hq2
  icases Hq2' with ⟨%s2, Hs2⟩
  ihave Hq3' := (heldAny_open c xs3 fullShare) $$ Hq3
  icases Hq3' with ⟨%s3, Hs3⟩
  have eS1 : semAt cc0_scratch5 1 inb_S11_S1_1 = dI 3 := by decide
  have eR1 : semAt cc0_scratch6 1 inb_S11_S1_1 = dI 14 := by decide
  have eS2 : semAt cc0_scratch5 2 inb_S11_S1_2 = dI 4 := by decide
  have eR2 : semAt cc0_scratch6 2 inb_S11_S1_2 = dI 15 := by decide
  simp only [eS1, eR1, eS2, eR2]
  iapply (send_chunk m K c (px c) _ (Fin.ext (k0_dev4_eq c)) xs1 xr1 3 14 fullShare t1 _ _ ht1 (OxUp c 10) (OxUp c 9) rfl W rfl rfl rfl rfl (by rw [px_px])) $$ HR Hs1 Hxr1 HO HtS1 HtR1
  iintro ⟨Hcr1, HO⟩
  iapply (load_whole c xvM (View.set_whole _)) $$ Hxv; iintro Hxv
  iapply (wp_load 𝒱₀ (c : Thread nD τ) none Set.univ (m := xsM) (S := xs2.view.set) (View.set_slice _ _).symm.subset) $$ Hs2; iintro Hs2
  iapply (step_store_sl c xsM (Rect.unit (s := S608x512) ![128, 0] S64x512.size inb_S608x512_S64x512_128_0) _ s2) $$ Hs2; iintro %t2 %ht2' Hs2
  have ht2 : xs2.view.read (Elt F) t2 = sx2 m c := ht2'
  iapply (send_chunk m K c (px c) _ (Fin.ext (k0_dev5_eq c)) xs2 xr2 4 15 fullShare t2 _ _ ht2 (OxUp c 9) (OxUp c 8) rfl W rfl rfl rfl rfl (by rw [px_px])) $$ HR Hs2 Hxr2 HO HtS2 HtR2
  iintro ⟨Hcr2, HO⟩
  iapply (load_whole c xvM (View.set_whole _)) $$ Hxv; iintro Hxv
  iapply (wp_load 𝒱₀ (c : Thread nD τ) none Set.univ (m := xsM) (S := xs3.view.set) (View.set_slice _ _).symm.subset) $$ Hs3; iintro Hs3
  iapply (step_store_sl c xsM (Rect.unit (s := S608x512) ![192, 0] S64x512.size inb_S608x512_S64x512_192_0) _ s3) $$ Hs3; iintro %t3 %ht3' Hs3
  have ht3 : xs3.view.read (Elt F) t3 = sx3 m c := ht3'
  rw [wp_ret]; imodintro
  iapply Hk
  isplitl [HO]
  · iexists _; iexact HO
  isplitl [Hxv]
  · iexact Hxv
  isplitl [Hs3]
  · iapply (heldRead_close c xs3 fullShare (sx3 m c)); iexists t3; isplitr; · ipureintro; exact ht3
    iexact Hs3
  isplitl [Hcr1]
  · iexact Hcr1
  iexact Hcr2

theorem part4_spec (K : Dev nD × Fin 39 → ℕ) (c : Dev nD) (v2 v5 v8 v9 v10 v11 v13 : BitVec 32) (v92 c4 : BitVec 32)
    (W : Waits sig Unit) (Ψ : (Σ' (v125 : FVec F S64x512 .bf16), Vec F S64x512 .bf16) → sProp 𝕄) :
    iprop(records m K ∗ levAts L lv ∗ owes (c : Thread nD τ) (OxUp c 8) W ∗ xvP m c ∗ heldRead c xs3 fullShare (sx3 m c) ∗ heldAny c xs4 fullShare ∗ heldAny c xs5 fullShare ∗ heldAny (px c) xr3 fullShare ∗ tkD c 5 ∗ tkD (px c) 16 ∗ heldAny (px c) xr4 fullShare ∗ tkD c 6 ∗ tkD (px c) 17
        ∗ (∀ v126 : Vec F S64x512 .bf16, ((∃ W', owes (c : Thread nD τ) (OxUp c 6) W') ∗ xvP m c ∗ heldAny c xs5 fullShare ∗ crD c 5 ∗ crD c 6) -∗ Ψ ⟨k0_pay6 (ldX64 m c (k0_off1 c 320#32) (k0_off1_inb c 5)), v126⟩))
      ⊢ wp frame (wpE (defs₀ (F := F)) 𝒱₀ c none) Set.univ (onWhole k0_part4 c v5 v8 v9 v11 v92 c4) (Ψ) := by
  simp only [onWhole, k0_part4_eq_skeleton]; unfold k0_part4_skel
  simp only [Prog.lift, Prog.bind_op, Prog.bind_ret, Prog.pure_eq_ret]
  unfold ldX64
  unfold xvP crD tkD
  iintro ⟨#HR, #Hlev, HO, Hxv, Hq3, Hq4, Hq5, Hxr3, HtS3, HtR3, Hxr4, HtS4, HtR4, Hk⟩
  ihave Hq3' := (heldRead_open c xs3 fullShare (sx3 m c)) $$ Hq3
  icases Hq3' with ⟨%t3, %ht3, Hs3⟩
  ihave Hq4' := (heldAny_open c xs4 fullShare) $$ Hq4
  icases Hq4' with ⟨%s4, Hs4⟩
  ihave Hq5' := (heldAny_open c xs5 fullShare) $$ Hq5
  icases Hq5' with ⟨%s5, Hs5⟩
  have eS3 : semAt cc0_scratch5 3 inb_S11_S1_3 = dI 5 := by decide
  have eR3 : semAt cc0_scratch6 3 inb_S11_S1_3 = dI 16 := by decide
  have eS4 : semAt cc0_scratch5 4 inb_S11_S1_4 = dI 6 := by decide
  have eR4 : semAt cc0_scratch6 4 inb_S11_S1_4 = dI 17 := by decide
  simp only [eS3, eR3, eS4, eR4]
  iapply (send_chunk m K c (px c) _ (Fin.ext (k0_dev6_eq c)) xs3 xr3 5 16 fullShare t3 _ _ ht3 (OxUp c 8) (OxUp c 7) rfl W rfl rfl rfl rfl (by rw [px_px])) $$ HR Hs3 Hxr3 HO HtS3 HtR3
  iintro ⟨Hcr3, HO⟩
  iapply (load_whole c xvM (View.set_whole _)) $$ Hxv; iintro Hxv
  iapply (wp_load 𝒱₀ (c : Thread nD τ) none Set.univ (m := xsM) (S := xs4.view.set) (View.set_slice _ _).symm.subset) $$ Hs4; iintro Hs4
  iapply (step_store_sl c xsM (Rect.unit (s := S608x512) ![256, 0] S64x512.size inb_S608x512_S64x512_256_0) _ s4) $$ Hs4; iintro %t4 %ht4' Hs4
  have ht4 : xs4.view.read (Elt F) t4 = sx4 m c := ht4'
  iapply (send_chunk m K c (px c) _ (Fin.ext (k0_dev7_eq c)) xs4 xr4 6 17 fullShare t4 _ _ ht4 (OxUp c 7) (OxUp c 6) rfl W rfl rfl rfl rfl (by rw [px_px])) $$ HR Hs4 Hxr4 HO HtS4 HtR4
  iintro ⟨Hcr4, HO⟩
  iapply (load_whole c xvM (View.set_whole _)) $$ Hxv; iintro Hxv
  iapply (wp_load 𝒱₀ (c : Thread nD τ) none Set.univ (m := xsM) (S := xs5.view.set) (View.set_slice _ _).symm.subset) $$ Hs5; iintro Hs5
  rw [wp_ret]; imodintro
  ispecialize Hk $$ %(xsM.view.readAt (Elt F) (Rect.unit (s := S608x512) ![320, 0] S64x512.size inb_S608x512_S64x512_320_0).toLoadRect s5)
  iapply Hk
  isplitl [HO]
  · iexists _; iexact HO
  isplitl [Hxv]
  · iexact Hxv
  isplitl [Hs5]
  · iapply (lent_any c xs5 fullShare s5); iexact Hs5
  isplitl [Hcr3]
  · iexact Hcr3
  iexact Hcr4

theorem part5_spec (K : Dev nD × Fin 39 → ℕ) (c : Dev nD) (v2 v5 v8 v9 v10 v11 v13 : BitVec 32) (v126 : Vec F S64x512 .bf16)
    (W : Waits sig Unit) (Ψ : sProp 𝕄) :
    iprop(records m K ∗ levAts L lv ∗ owes (c : Thread nD τ) (OxUp c 6) W ∗ xvP m c ∗ heldAny c xs5 fullShare ∗ heldAny c xs6 fullShare ∗ heldAny (px c) xr5 fullShare ∗ tkD c 7 ∗ tkD (px c) 18
        ∗ (((∃ W', owes (c : Thread nD τ) (OxUp c 5) W') ∗ xvP m c ∗ heldRead c xs6 fullShare (sx6 m c) ∗ crD c 7) -∗ Ψ))
      ⊢ wp frame (wpE (defs₀ (F := F)) 𝒱₀ c none) Set.univ (onWhole k0_part5 c v5 v8 v9 v11 (k0_pay6 (ldX64 m c (k0_off1 c 320#32) (k0_off1_inb c 5))) v126) (fun _ => Ψ) := by
  simp only [onWhole, k0_part5_eq_skeleton]; unfold k0_part5_skel
  simp only [Prog.lift, Prog.bind_op, Prog.bind_ret, Prog.pure_eq_ret]
  unfold xvP crD tkD
  iintro ⟨#HR, #Hlev, HO, Hxv, Hq5, Hq6, Hxr5, HtS5, HtR5, Hk⟩
  ihave Hq5' := (heldAny_open c xs5 fullShare) $$ Hq5
  icases Hq5' with ⟨%s5, Hs5⟩
  ihave Hq6' := (heldAny_open c xs6 fullShare) $$ Hq6
  icases Hq6' with ⟨%s6, Hs6⟩
  have eS5 : semAt cc0_scratch5 5 inb_S11_S1_5 = dI 7 := by decide
  have eR5 : semAt cc0_scratch6 5 inb_S11_S1_5 = dI 18 := by decide
  simp only [eS5, eR5]
  iapply (step_store_sl c xsM (Rect.unit (s := S608x512) ![320, 0] S64x512.size inb_S608x512_S64x512_320_0) _ s5) $$ Hs5; iintro %t5 %ht5' Hs5
  have ht5 : xs5.view.read (Elt F) t5 = sx5 m c := ht5'
  iapply (send_chunk m K c (px c) _ (Fin.ext (k0_dev8_eq c)) xs5 xr5 7 18 fullShare t5 _ _ ht5 (OxUp c 6) (OxUp c 5) rfl W rfl rfl rfl rfl (by rw [px_px])) $$ HR Hs5 Hxr5 HO HtS5 HtR5
  iintro ⟨Hcr5, HO⟩
  iapply (load_whole c xvM (View.set_whole _)) $$ Hxv; iintro Hxv
  iapply (wp_load 𝒱₀ (c : Thread nD τ) none Set.univ (m := xsM) (S := xs6.view.set) (View.set_slice _ _).symm.subset) $$ Hs6; iintro Hs6
  iapply (step_store_sl c xsM (Rect.unit (s := S608x512) ![384, 0] S32x512.size inb_S608x512_S32x512_384_0) _ s6) $$ Hs6; iintro %t6 %ht6' Hs6
  have ht6 : xs6.view.read (Elt F) t6 = sx6 m c := ht6'
  rw [wp_ret]; imodintro
  iapply Hk
  isplitl [HO]
  · iexists _; iexact HO
  isplitl [Hxv]
  · iexact Hxv
  isplitl [Hs6]
  · iapply (heldRead_close c xs6 fullShare (sx6 m c)); iexists t6; isplitr; · ipureintro; exact ht6
    iexact Hs6
  iexact Hcr5

theorem part6_spec (K : Dev nD × Fin 39 → ℕ) (c : Dev nD) (v2 v5 v8 v9 v10 v11 v13 : BitVec 32)
    (W : Waits sig Unit) (Ψ : sProp 𝕄) :
    iprop(records m K ∗ levAts L lv ∗ owes (c : Thread nD τ) (OxUp c 5) W ∗ xvP m c ∗ heldRead c xs6 fullShare (sx6 m c) ∗ heldAny c xs7 fullShare ∗ heldAny c xs8 fullShare ∗ heldAny (px c) xr6 fullShare ∗ tkD c 8 ∗ tkD (px c) 19 ∗ heldAny (px c) xr7 fullShare ∗ tkD c 9 ∗ tkD (px c) 20
        ∗ (((∃ W', owes (c : Thread nD τ) (OxUp c 3) W') ∗ xvP m c ∗ heldRead c xs8 fullShare (sx8 m c) ∗ crD c 8 ∗ crD c 9) -∗ Ψ))
      ⊢ wp frame (wpE (defs₀ (F := F)) 𝒱₀ c none) Set.univ (onWhole k0_part6 c v5 v8 v9 v11) (fun _ => Ψ) := by
  simp only [onWhole, k0_part6_eq_skeleton]; unfold k0_part6_skel
  simp only [Prog.lift, Prog.bind_op, Prog.bind_ret, Prog.pure_eq_ret]
  unfold xvP crD tkD
  iintro ⟨#HR, #Hlev, HO, Hxv, Hq6, Hq7, Hq8, Hxr6, HtS6, HtR6, Hxr7, HtS7, HtR7, Hk⟩
  ihave Hq6' := (heldRead_open c xs6 fullShare (sx6 m c)) $$ Hq6
  icases Hq6' with ⟨%t6, %ht6, Hs6⟩
  ihave Hq7' := (heldAny_open c xs7 fullShare) $$ Hq7
  icases Hq7' with ⟨%s7, Hs7⟩
  ihave Hq8' := (heldAny_open c xs8 fullShare) $$ Hq8
  icases Hq8' with ⟨%s8, Hs8⟩
  have eS6 : semAt cc0_scratch5 6 inb_S11_S1_6 = dI 8 := by decide
  have eR6 : semAt cc0_scratch6 6 inb_S11_S1_6 = dI 19 := by decide
  have eS7 : semAt cc0_scratch5 7 inb_S11_S1_7 = dI 9 := by decide
  have eR7 : semAt cc0_scratch6 7 inb_S11_S1_7 = dI 20 := by decide
  simp only [eS6, eR6, eS7, eR7]
  iapply (send_chunk m K c (px c) _ (Fin.ext (k0_dev9_eq c)) xs6 xr6 8 19 fullShare t6 _ _ ht6 (OxUp c 5) (OxUp c 4) rfl W rfl rfl rfl rfl (by rw [px_px])) $$ HR Hs6 Hxr6 HO HtS6 HtR6
  iintro ⟨Hcr6, HO⟩
  iapply (load_whole c xvM (View.set_whole _)) $$ Hxv; iintro Hxv
  iapply (wp_load 𝒱₀ (c : Thread nD τ) none Set.univ (m := xsM) (S := xs7.view.set) (View.set_slice _ _).symm.subset) $$ Hs7; iintro Hs7
  iapply (step_store_sl c xsM (Rect.unit (s := S608x512) ![416, 0] S64x512.size inb_S608x512_S64x512_416_0) _ s7) $$ Hs7; iintro %t7 %ht7' Hs7
  have ht7 : xs7.view.read (Elt F) t7 = sx7 m c := ht7'
  iapply (send_chunk m K c (px c) _ (Fin.ext (k0_dev10_eq c)) xs7 xr7 9 20 fullShare t7 _ _ ht7 (OxUp c 4) (OxUp c 3) rfl W rfl rfl rfl rfl (by rw [px_px])) $$ HR Hs7 Hxr7 HO HtS7 HtR7
  iintro ⟨Hcr7, HO⟩
  iapply (load_whole c xvM (View.set_whole _)) $$ Hxv; iintro Hxv
  iapply (wp_load 𝒱₀ (c : Thread nD τ) none Set.univ (m := xsM) (S := xs8.view.set) (View.set_slice _ _).symm.subset) $$ Hs8; iintro Hs8
  iapply (step_store_sl c xsM (Rect.unit (s := S608x512) ![480, 0] S32x512.size inb_S608x512_S32x512_480_0) _ s8) $$ Hs8; iintro %t8 %ht8' Hs8
  have ht8 : xs8.view.read (Elt F) t8 = sx8 m c := ht8'
  rw [wp_ret]; imodintro
  iapply Hk
  isplitl [HO]
  · iexists _; iexact HO
  isplitl [Hxv]
  · iexact Hxv
  isplitl [Hs8]
  · iapply (heldRead_close c xs8 fullShare (sx8 m c)); iexists t8; isplitr; · ipureintro; exact ht8
    iexact Hs8
  isplitl [Hcr6]
  · iexact Hcr6
  iexact Hcr7

theorem part7_spec (K : Dev nD × Fin 39 → ℕ) (c : Dev nD) (v2 v5 v8 v9 v10 v11 v13 : BitVec 32)
    (W : Waits sig Unit) (Ψ : FVec F S32x512 .bf16 → sProp 𝕄) :
    iprop(records m K ∗ levAts L lv ∗ owes (c : Thread nD τ) (OxUp c 3) W ∗ xvP m c ∗ heldRead c xs8 fullShare (sx8 m c) ∗ heldAny c xs9 fullShare ∗ heldAny c xs10 fullShare ∗ heldAny (px c) xr8 fullShare ∗ tkD c 10 ∗ tkD (px c) 21 ∗ heldAny (px c) xr9 fullShare ∗ tkD c 11 ∗ tkD (px c) 22
        ∗ (((∃ W', owes (c : Thread nD τ) (OxUp c 1) W') ∗ xvP m c ∗ heldAny c xs10 fullShare ∗ crD c 10 ∗ crD c 11) -∗ Ψ (k0_pay12 (ldX32 m c (k0_off4 c) (k0_off4_inb c)))))
      ⊢ wp frame (wpE (defs₀ (F := F)) 𝒱₀ c none) Set.univ (onWhole k0_part7 c v5 v8 v9 v13) (Ψ) := by
  simp only [onWhole, k0_part7_eq_skeleton]; unfold k0_part7_skel
  simp only [Prog.lift, Prog.bind_op, Prog.bind_ret, Prog.pure_eq_ret]
  unfold ldX32
  unfold xvP crD tkD
  iintro ⟨#HR, #Hlev, HO, Hxv, Hq8, Hq9, Hq10, Hxr8, HtS8, HtR8, Hxr9, HtS9, HtR9, Hk⟩
  ihave Hq8' := (heldRead_open c xs8 fullShare (sx8 m c)) $$ Hq8
  icases Hq8' with ⟨%t8, %ht8, Hs8⟩
  ihave Hq9' := (heldAny_open c xs9 fullShare) $$ Hq9
  icases Hq9' with ⟨%s9, Hs9⟩
  ihave Hq10' := (heldAny_open c xs10 fullShare) $$ Hq10
  icases Hq10' with ⟨%s10, Hs10⟩
  have eS8 : semAt cc0_scratch5 8 inb_S11_S1_8 = dI 10 := by decide
  have eR8 : semAt cc0_scratch6 8 inb_S11_S1_8 = dI 21 := by decide
  have eS9 : semAt cc0_scratch5 9 inb_S11_S1_9 = dI 11 := by decide
  have eR9 : semAt cc0_scratch6 9 inb_S11_S1_9 = dI 22 := by decide
  simp only [eS8, eR8, eS9, eR9]
  iapply (send_chunk m K c (px c) _ (Fin.ext (k0_dev11_eq c)) xs8 xr8 10 21 fullShare t8 _ _ ht8 (OxUp c 3) (OxUp c 2) rfl W rfl rfl rfl rfl (by rw [px_px])) $$ HR Hs8 Hxr8 HO HtS8 HtR8
  iintro ⟨Hcr8, HO⟩
  iapply (load_whole c xvM (View.set_whole _)) $$ Hxv; iintro Hxv
  iapply (wp_load 𝒱₀ (c : Thread nD τ) none Set.univ (m := xsM) (S := xs9.view.set) (View.set_slice _ _).symm.subset) $$ Hs9; iintro Hs9
  iapply (step_store_sl c xsM (Rect.unit (s := S608x512) ![512, 0] S64x512.size inb_S608x512_S64x512_512_0) _ s9) $$ Hs9; iintro %t9 %ht9' Hs9
  have ht9 : xs9.view.read (Elt F) t9 = sx9 m c := ht9'
  iapply (send_chunk m K c (px c) _ (Fin.ext (k0_dev12_eq c)) xs9 xr9 11 22 fullShare t9 _ _ ht9 (OxUp c 2) (OxUp c 1) rfl W rfl rfl rfl rfl (by rw [px_px])) $$ HR Hs9 Hxr9 HO HtS9 HtR9
  iintro ⟨Hcr9, HO⟩
  iapply (load_whole c xvM (View.set_whole _)) $$ Hxv; iintro Hxv
  iapply (wp_load 𝒱₀ (c : Thread nD τ) none Set.univ (m := xsM) (S := xs10.view.set) (View.set_slice _ _).symm.subset) $$ Hs10; iintro Hs10
  rw [wp_ret]; imodintro
  iapply Hk
  isplitl [HO]
  · iexists _; iexact HO
  isplitl [Hxv]
  · iexact Hxv
  isplitl [Hs10]
  · iapply (lent_any c xs10 fullShare s10); iexact Hs10
  isplitl [Hcr8]
  · iexact Hcr8
  iexact Hcr9

theorem part8_spec (K : Dev nD × Fin 39 → ℕ) (c : Dev nD) (v2 v5 v8 v9 v10 v11 v13 : BitVec 32)
    (W : Waits sig Unit) (Ψ : sProp 𝕄) :
    iprop(records m K ∗ levAts L lv ∗ owes (c : Thread nD τ) (OxUp c 1) W ∗ xvP m c ∗ heldAny c xs10 fullShare ∗ heldAny (px c) xr10 fullShare ∗ tkD c 12 ∗ tkD (px c) 23 ∗ crD c 13 ∗ at0 c 13
        ∗ (((∃ W', owes (c : Thread nD τ) (OyUp c 7) W') ∗ xvP m c ∗ crD c 12 ∗ at1 c 13 ∗ heldRead c xr0 fullShare (sx0 m (px c))) -∗ Ψ))
      ⊢ wp frame (wpE (defs₀ (F := F)) 𝒱₀ c none) Set.univ (onWhole k0_part8 c v2 v5 v8 v9 v10 (k0_pay12 (ldX32 m c (k0_off4 c) (k0_off4_inb c)))) (fun _ => Ψ) := by
  simp only [onWhole, k0_part8_eq_skeleton]; unfold k0_part8_skel
  simp only [Prog.lift, Prog.bind_op, Prog.bind_ret, Prog.pure_eq_ret]
  unfold xvP crD at0 at1 tkD
  iintro ⟨#HR, #Hlev, HO, Hxv, Hq10, Hxr10, HtS10, HtR10, Hc13, Ha13, Hk⟩
  ihave Hq10' := (heldAny_open c xs10 fullShare) $$ Hq10
  icases Hq10' with ⟨%s10, Hs10⟩
  have eS10 : semAt cc0_scratch5 10 inb_S11_S1_10 = dI 12 := by decide
  have eR10 : semAt cc0_scratch6 10 inb_S11_S1_10 = dI 23 := by decide
  have eR0 : semAt cc0_scratch6 0 inb_S11_S1_0 = dI 13 := by decide
  simp only [eS10, eR10, eR0]
  iapply (step_store_sl c xsM (Rect.unit (s := S608x512) ![576, 0] S32x512.size inb_S608x512_S32x512_576_0) _ s10) $$ Hs10; iintro %t10 %ht10' Hs10
  have ht10 : xs10.view.read (Elt F) t10 = sx10 m c := ht10'
  iapply (send_chunk m K c (px c) _ (Fin.ext (k0_dev13_eq c)) xs10 xr10 12 23 fullShare t10 _ _ ht10 (OxUp c 1) (OyUp c 7) rfl W rfl rfl rfl rfl (by rw [px_px])) $$ HR Hs10 Hxr10 HO HtS10 HtR10
  iintro ⟨Hcr10, HO⟩
  iapply (wait_dma m K c 13 (OyUp c 7) _ 3 (fun g u h => OyUp_pos 7 h) (src := xs0) (dst := xr0) rfl) $$ HR Hlev Hc13 HO Ha13
  iintro ⟨HO, Ha13, Hp⟩
  ihave Hp' := (Entails.of_eq (show payD m c 13 = heldRead c xr0 fullShare (sx0 m (px c)) from rfl)) $$ Hp
  rw [wp_ret]; imodintro
  iapply Hk
  isplitl [HO]
  · iexists _; iexact HO
  isplitl [Hxv]
  · iexact Hxv
  isplitl [Hcr10]
  · iexact Hcr10
  isplitl [Ha13]
  · iexact Ha13
  iexact Hp'

theorem seg1b (K : Dev nD × Fin 39 → ℕ) (c : Dev nD) (g : Buf (Elt F) (oM.view.loc (c : Thread nD τ))) (v2 v5 v8 v9 v10 v11 v13 : BitVec 32) (Φ : sProp 𝕄) :
    iprop(St0 m K c g ∗ (St1 m K c g -∗ Φ)) ⊢
      wp frame (wpE (defs₀ (F := F)) 𝒱₀ c none) Set.univ (onWhole k0_part2 c v5 v8 v9 v11) (fun _ =>
      wp frame (wpE (defs₀ (F := F)) 𝒱₀ c none) Set.univ (onWhole k0_part3 c v5 v8 v9 v11) (fun x =>
      wp frame (wpE (defs₀ (F := F)) 𝒱₀ c none) Set.univ (onWhole k0_part4 c v5 v8 v9 v11 x.fst x.snd) (fun y =>
      wp frame (wpE (defs₀ (F := F)) 𝒱₀ c none) Set.univ (onWhole k0_part5 c v5 v8 v9 v11 y.fst y.snd) (fun _ =>
      wp frame (wpE (defs₀ (F := F)) 𝒱₀ c none) Set.univ (onWhole k0_part6 c v5 v8 v9 v11) (fun _ =>
      wp frame (wpE (defs₀ (F := F)) 𝒱₀ c none) Set.univ (onWhole k0_part7 c v5 v8 v9 v13) (fun v222 =>
      wp frame (wpE (defs₀ (F := F)) 𝒱₀ c none) Set.univ (onWhole k0_part8 c v2 v5 v8 v9 v10 v222) (fun _ => Φ))))))) := by
  unfold St0 St1 xsAll xrAll
  simp only [bigSepL_cons_cons, bigSepL_singleton, sep_notation]
  iintro ⟨⟨#HR, #Hlev, ⟨%W0, HO⟩, Hxv, Harg, Hout, ⟨q0, q1, q2, q3, q4, q5, q6, q7, q8, q9, q10⟩, ⟨r0, r1, r2, r3, r4, r5, r6, r7, r8, r9, r10⟩, Hyr, ⟨ts2, ts3, ts4, ts5, ts6, ts7, ts8, ts9, ts10, ts11, ts12⟩, ⟨tr13, tr14, tr15, tr16, tr17, tr18, tr19, tr20, tr21, tr22, tr23⟩, ⟨a2, a3, a4, a5, a6, a7, a8, a9, a10, a11, a12, a13, Arest⟩, b1, Hfin, T24, U31, d13, Drest⟩, Hk⟩
  iapply (part2_spec m K c v2 v5 v8 v9 v10 v11 v13 W0 _)
  iframe HR Hlev HO Hxv q0 q1 r0 ts2 tr13
  iintro ⟨⟨%W1, HO⟩, Hxv, q1, c2⟩
  iapply (part3_spec m K c v2 v5 v8 v9 v10 v11 v13 W1 _)
  iframe HR Hlev HO Hxv q1 q2 q3 r1 ts3 tr14 r2 ts4 tr15
  iintro ⟨⟨%W2, HO⟩, Hxv, q3, c3, c4⟩
  iapply (part4_spec m K c v2 v5 v8 v9 v10 v11 v13 _ _ W2 _)
  iframe HR Hlev HO Hxv q3 q4 q5 r3 ts5 tr16 r4 ts6 tr17
  iintro %v126 ⟨⟨%W3, HO⟩, Hxv, q5, c5, c6⟩
  iapply (part5_spec m K c v2 v5 v8 v9 v10 v11 v13 _ W3 _)
  iframe HR Hlev HO Hxv q5 q6 r5 ts7 tr18
  iintro ⟨⟨%W4, HO⟩, Hxv, q6, c7⟩
  iapply (part6_spec m K c v2 v5 v8 v9 v10 v11 v13 W4 _)
  iframe HR Hlev HO Hxv q6 q7 q8 r6 ts8 tr19 r7 ts9 tr20
  iintro ⟨⟨%W5, HO⟩, Hxv, q8, c8, c9⟩
  iapply (part7_spec m K c v2 v5 v8 v9 v10 v11 v13 W5 _)
  iframe HR Hlev HO Hxv q8 q9 q10 r8 ts10 tr21 r9 ts11 tr22
  iintro ⟨⟨%W6, HO⟩, Hxv, q10, c10, c11⟩
  iapply (part8_spec m K c v2 v5 v8 v9 v10 v11 v13 W6 _)
  iframe HR Hlev HO Hxv q10 r10 ts12 tr23 d13 a13
  iintro ⟨⟨%W7, HO⟩, Hxv, c12, b13, Hx0⟩
  iapply Hk
  iframe HR Hlev
  isplitl [HO]; · iexists W7; iexact HO
  iframe Hxv Harg Hout
  isplitl [c2 c3 c4 c5 c6 c7 c8 c9 c10 c11 c12]
  · isplitl [c2]; · iexact c2
    iframe c3 c4 c5 c6 c7 c8 c9 c10 c11
    iexact c12
  isplitl [a2 a3 a4 a5 a6 a7 a8 a9 a10 a11 a12 Arest]
  · isplitl [a2]; · iexact a2
    iframe a3 a4 a5 a6 a7 a8 a9 a10 a11 a12
    iexact Arest
  isplitl [b1 b13]
  · isplitl [b1]; · iexact b1
    iexact b13
  iframe Hfin T24 U31 Drest Hyr
  iexact Hx0

/-- info: 'Cert.KernelIdeal.AR.seg1b' depends on axioms: [propext, Classical.choice, Quot.sound] -/
#guard_msgs in #print axioms seg1b

end Cert.KernelIdeal.AR

end
-- ==== Proof.Seg2a.lean ====
import proofs.«900705_g7700000000000706_dist_ar_v7x_xyz2x2x4_x_m1024_n512_bf16_1_alg».proof.Proof.States2
import proofs.«900705_g7700000000000706_dist_ar_v7x_xyz2x2x4_x_m1024_n512_bf16_1_alg».proof.Proof.Regions

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

theorem part9_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 7) W ∗ xvP m c ∗ outP c g
        ∗ heldRead c xr0 fullShare (sx0 m (px c)) ∗ heldAny (py c) yr0 fullShare ∗ tkD c 24 ∗ tkD (py c) 31 ∗ crD c 14 ∗ at0 c 14
        ∗ (((∃ W', owes (c : Thread nD τ) (OyUp c 6) W') ∗ xvP m c ∗ outP c (w64 g (k0_off1 c 0#32) (k0_off1_inb c 0) (k0_pay14 (ldX64 m c (k0_off1 c 0#32) (k0_off1_inb c 0)) (sx0 m (px c))))
            ∗ heldRead c xr0 fullShare.right (sx0 m (px c)) ∗ crD c 24 ∗ at1 c 14 ∗ heldRead c xr1 fullShare (sx1 m (px c))) -∗ Ψ))
      ⊢ wp frame (wpE (defs₀ (F := F)) 𝒱₀ c none) Set.univ (onWhole k0_part9 c v2 v5 v8 v9 v10 v11) (fun _ => Ψ) := by
  simp only [onWhole, k0_part9_eq_skeleton]; unfold k0_part9_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr0 fullShare (sx0 m (px c))) $$ Hxr
  icases Hxr' with ⟨%f, %hf, Hxr⟩
  ihave Hh := (held_halve c xr0 f).1 $$ Hxr
  icases Hh with ⟨Hl, Hr⟩
  have eS : semAt cc0_scratch7 0 inb_S7_S1_0 = dI 24 := by decide
  have eR : semAt cc0_scratch8 0 inb_S7_S1_0 = dI 31 := by decide
  have eW : semAt cc0_scratch6 1 inb_S11_S1_1 = dI 14 := by decide
  simp only [eS, eR, eW]
  iapply (send_chunk m K c (py c) _ (Fin.ext (k0_dev14_eq c)) xr0 yr0 24 31 fullShare.left f _ _ hf (OyUp c 7) (OyUp c 6) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr0.view.set) (View.set_slice _ _).symm.subset) $$ Hr; iintro Hr
  rw [show xrM.view.readAt (Elt F) (Rect.unit (s := S608x512) ![0, 0] S64x512.size inb_S608x512_S64x512_0_0).toLoadRect f = sx0 m (px c) from hf]
  iapply (load_whole c oM (View.set_whole _)) $$ Hout; iintro Hout
  iapply (store_whole c oM (r := Rect.unit (s := S1024x512) (k0_off1 c 0#32) S64x512.size (k0_off1_inb c 0))) $$ Hout; iintro Hout
  iapply (wait_dma m K c 14 (OyUp c 6) _ 3 (fun g u h => OyUp_pos 6 h) (src := xs1) (dst := xr1) rfl) $$ HR Hlev Hcr HO Hat
  iintro ⟨HO, Hat, Hp⟩
  ihave Hp' := (Entails.of_eq (show payD m c 14 = heldRead c xr1 fullShare (sx1 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr0 fullShare.right (sx0 m (px c))); iexists f; isplitr; · ipureintro; exact hf
    iexact Hr
  iframe HcrS Hat
  iexact Hp'

theorem part10_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 6) W ∗ xvP m c ∗ outP c g
        ∗ heldRead c xr1 fullShare (sx1 m (px c)) ∗ heldAny (py c) yr1 fullShare ∗ tkD c 25 ∗ tkD (py c) 32 ∗ crD c 15 ∗ at0 c 15
        ∗ (((∃ W', owes (c : Thread nD τ) (OyUp c 5) W') ∗ xvP m c ∗ outP c (w64 g (k0_off1 c 64#32) (k0_off1_inb c 1) (k0_pay15 (ldX64 m c (k0_off1 c 64#32) (k0_off1_inb c 1)) (sx1 m (px c))))
            ∗ heldRead c xr1 fullShare.right (sx1 m (px c)) ∗ crD c 25 ∗ at1 c 15 ∗ heldRead c xr2 fullShare (sx2 m (px c))) -∗ Ψ))
      ⊢ wp frame (wpE (defs₀ (F := F)) 𝒱₀ c none) Set.univ (onWhole k0_part10 c v2 v5 v8 v9 v10 v11) (fun _ => Ψ) := by
  simp only [onWhole, k0_part10_eq_skeleton]; unfold k0_part10_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr1 fullShare (sx1 m (px c))) $$ Hxr
  icases Hxr' with ⟨%f, %hf, Hxr⟩
  ihave Hh := (held_halve c xr1 f).1 $$ Hxr
  icases Hh with ⟨Hl, Hr⟩
  have eS : semAt cc0_scratch7 1 inb_S7_S1_1 = dI 25 := by decide
  have eR : semAt cc0_scratch8 1 inb_S7_S1_1 = dI 32 := by decide
  have eW : semAt cc0_scratch6 2 inb_S11_S1_2 = dI 15 := by decide
  simp only [eS, eR, eW]
  iapply (send_chunk m K c (py c) _ (Fin.ext (k0_dev15_eq c)) xr1 yr1 25 32 fullShare.left f _ _ hf (OyUp c 6) (OyUp c 5) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr1.view.set) (View.set_slice _ _).symm.subset) $$ Hr; iintro Hr
  rw [show xrM.view.readAt (Elt F) (Rect.unit (s := S608x512) ![64, 0] S64x512.size inb_S608x512_S64x512_64_0).toLoadRect f = sx1 m (px c) from hf]
  iapply (load_whole c oM (View.set_whole _)) $$ Hout; iintro Hout
  iapply (store_whole c oM (r := Rect.unit (s := S1024x512) (k0_off1 c 64#32) S64x512.size (k0_off1_inb c 1))) $$ Hout; iintro Hout
  iapply (wait_dma m K c 15 (OyUp c 5) _ 3 (fun g u h => OyUp_pos 5 h) (src := xs2) (dst := xr2) rfl) $$ HR Hlev Hcr HO Hat
  iintro ⟨HO, Hat, Hp⟩
  ihave Hp' := (Entails.of_eq (show payD m c 15 = heldRead c xr2 fullShare (sx2 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr1 fullShare.right (sx1 m (px c))); iexists f; isplitr; · ipureintro; exact hf
    iexact Hr
  iframe HcrS Hat
  iexact Hp'

theorem part11_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 5) W ∗ xvP m c ∗ outP c g
        ∗ heldRead c xr2 fullShare (sx2 m (px c)) ∗ heldAny (py c) yr2 fullShare ∗ tkD c 26 ∗ tkD (py c) 33 ∗ crD c 16 ∗ at0 c 16
        ∗ (((∃ W', owes (c : Thread nD τ) (OyUp c 4) W') ∗ xvP m c ∗ outP c (w64 g (k0_off1 c 128#32) (k0_off1_inb c 2) (k0_pay16 (ldX64 m c (k0_off1 c 128#32) (k0_off1_inb c 2)) (sx2 m (px c))))
            ∗ heldRead c xr2 fullShare.right (sx2 m (px c)) ∗ crD c 26 ∗ at1 c 16 ∗ heldRead c xr3 fullShare (sx3 m (px c))) -∗ Ψ))
      ⊢ wp frame (wpE (defs₀ (F := F)) 𝒱₀ c none) Set.univ (onWhole k0_part11 c v2 v5 v8 v9 v10 v11) (fun _ => Ψ) := by
  simp only [onWhole, k0_part11_eq_skeleton]; unfold k0_part11_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr2 fullShare (sx2 m (px c))) $$ Hxr
  icases Hxr' with ⟨%f, %hf, Hxr⟩
  ihave Hh := (held_halve c xr2 f).1 $$ Hxr
  icases Hh with ⟨Hl, Hr⟩
  have eS : semAt cc0_scratch7 2 inb_S7_S1_2 = dI 26 := by decide
  have eR : semAt cc0_scratch8 2 inb_S7_S1_2 = dI 33 := by decide
  have eW : semAt cc0_scratch6 3 inb_S11_S1_3 = dI 16 := by decide
  simp only [eS, eR, eW]
  iapply (send_chunk m K c (py c) _ (Fin.ext (k0_dev16_eq c)) xr2 yr2 26 33 fullShare.left f _ _ hf (OyUp c 5) (OyUp c 4) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr2.view.set) (View.set_slice _ _).symm.subset) $$ Hr; iintro Hr
  rw [show xrM.view.readAt (Elt F) (Rect.unit (s := S608x512) ![128, 0] S64x512.size inb_S608x512_S64x512_128_0).toLoadRect f = sx2 m (px c) from hf]
  iapply (load_whole c oM (View.set_whole _)) $$ Hout; iintro Hout
  iapply (store_whole c oM (r := Rect.unit (s := S1024x512) (k0_off1 c 128#32) S64x512.size (k0_off1_inb c 2))) $$ Hout; iintro Hout
  iapply (wait_dma m K c 16 (OyUp c 4) _ 3 (fun g u h => OyUp_pos 4 h) (src := xs3) (dst := xr3) rfl) $$ HR Hlev Hcr HO Hat
  iintro ⟨HO, Hat, Hp⟩
  ihave Hp' := (Entails.of_eq (show payD m c 16 = heldRead c xr3 fullShare (sx3 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr2 fullShare.right (sx2 m (px c))); iexists f; isplitr; · ipureintro; exact hf
    iexact Hr
  iframe HcrS Hat
  iexact Hp'

theorem part12_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 4) W ∗ xvP m c ∗ outP c g
        ∗ heldRead c xr3 fullShare (sx3 m (px c)) ∗ heldAny (py c) yr3 fullShare ∗ tkD c 27 ∗ tkD (py c) 34 ∗ crD c 17 ∗ at0 c 17
        ∗ (((∃ W', owes (c : Thread nD τ) (OyUp c 3) W') ∗ xvP m c ∗ outP c (w64 g (k0_off1 c 192#32) (k0_off1_inb c 3) (k0_pay17 (ldX64 m c (k0_off1 c 192#32) (k0_off1_inb c 3)) (sx3 m (px c))))
            ∗ heldRead c xr3 fullShare.right (sx3 m (px c)) ∗ crD c 27 ∗ at1 c 17 ∗ heldRead c xr4 fullShare (sx4 m (px c))) -∗ Ψ))
      ⊢ wp frame (wpE (defs₀ (F := F)) 𝒱₀ c none) Set.univ (onWhole k0_part12 c v2 v5 v8 v9 v10 v11) (fun _ => Ψ) := by
  simp only [onWhole, k0_part12_eq_skeleton]; unfold k0_part12_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr3 fullShare (sx3 m (px c))) $$ Hxr
  icases Hxr' with ⟨%f, %hf, Hxr⟩
  ihave Hh := (held_halve c xr3 f).1 $$ Hxr
  icases Hh with ⟨Hl, Hr⟩
  have eS : semAt cc0_scratch7 3 inb_S7_S1_3 = dI 27 := by decide
  have eR : semAt cc0_scratch8 3 inb_S7_S1_3 = dI 34 := by decide
  have eW : semAt cc0_scratch6 4 inb_S11_S1_4 = dI 17 := by decide
  simp only [eS, eR, eW]
  iapply (send_chunk m K c (py c) _ (Fin.ext (k0_dev17_eq c)) xr3 yr3 27 34 fullShare.left f _ _ hf (OyUp c 4) (OyUp c 3) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr3.view.set) (View.set_slice _ _).symm.subset) $$ Hr; iintro Hr
  rw [show xrM.view.readAt (Elt F) (Rect.unit (s := S608x512) ![192, 0] S64x512.size inb_S608x512_S64x512_192_0).toLoadRect f = sx3 m (px c) from hf]
  iapply (load_whole c oM (View.set_whole _)) $$ Hout; iintro Hout
  iapply (store_whole c oM (r := Rect.unit (s := S1024x512) (k0_off1 c 192#32) S64x512.size (k0_off1_inb c 3))) $$ Hout; iintro Hout
  iapply (wait_dma m K c 17 (OyUp c 3) _ 3 (fun g u h => OyUp_pos 3 h) (src := xs4) (dst := xr4) rfl) $$ HR Hlev Hcr HO Hat
  iintro ⟨HO, Hat, Hp⟩
  ihave Hp' := (Entails.of_eq (show payD m c 17 = heldRead c xr4 fullShare (sx4 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr3 fullShare.right (sx3 m (px c))); iexists f; isplitr; · ipureintro; exact hf
    iexact Hr
  iframe HcrS Hat
  iexact Hp'

theorem part13_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 3) W ∗ xvP m c ∗ outP c g
        ∗ heldRead c xr4 fullShare (sx4 m (px c)) ∗ heldAny (py c) yr4 fullShare ∗ tkD c 28 ∗ tkD (py c) 35 ∗ crD c 18 ∗ at0 c 18
        ∗ (((∃ W', owes (c : Thread nD τ) (OyUp c 2) W') ∗ xvP m c ∗ outP c (w64 g (k0_off1 c 256#32) (k0_off1_inb c 4) (k0_pay18 (ldX64 m c (k0_off1 c 256#32) (k0_off1_inb c 4)) (sx4 m (px c))))
            ∗ heldRead c xr4 fullShare.right (sx4 m (px c)) ∗ crD c 28 ∗ at1 c 18 ∗ heldRead c xr5 fullShare (sx5 m (px c))) -∗ Ψ))
      ⊢ wp frame (wpE (defs₀ (F := F)) 𝒱₀ c none) Set.univ (onWhole k0_part13 c v2 v5 v8 v9 v10 v11) (fun _ => Ψ) := by
  simp only [onWhole, k0_part13_eq_skeleton]; unfold k0_part13_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr4 fullShare (sx4 m (px c))) $$ Hxr
  icases Hxr' with ⟨%f, %hf, Hxr⟩
  ihave Hh := (held_halve c xr4 f).1 $$ Hxr
  icases Hh with ⟨Hl, Hr⟩
  have eS : semAt cc0_scratch7 4 inb_S7_S1_4 = dI 28 := by decide
  have eR : semAt cc0_scratch8 4 inb_S7_S1_4 = dI 35 := by decide
  have eW : semAt cc0_scratch6 5 inb_S11_S1_5 = dI 18 := by decide
  simp only [eS, eR, eW]
  iapply (send_chunk m K c (py c) _ (Fin.ext (k0_dev18_eq c)) xr4 yr4 28 35 fullShare.left f _ _ hf (OyUp c 3) (OyUp c 2) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr4.view.set) (View.set_slice _ _).symm.subset) $$ Hr; iintro Hr
  rw [show xrM.view.readAt (Elt F) (Rect.unit (s := S608x512) ![256, 0] S64x512.size inb_S608x512_S64x512_256_0).toLoadRect f = sx4 m (px c) from hf]
  iapply (load_whole c oM (View.set_whole _)) $$ Hout; iintro Hout
  iapply (store_whole c oM (r := Rect.unit (s := S1024x512) (k0_off1 c 256#32) S64x512.size (k0_off1_inb c 4))) $$ Hout; iintro Hout
  iapply (wait_dma m K c 18 (OyUp c 2) _ 3 (fun g u h => OyUp_pos 2 h) (src := xs5) (dst := xr5) rfl) $$ HR Hlev Hcr HO Hat
  iintro ⟨HO, Hat, Hp⟩
  ihave Hp' := (Entails.of_eq (show payD m c 18 = heldRead c xr5 fullShare (sx5 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr4 fullShare.right (sx4 m (px c))); iexists f; isplitr; · ipureintro; exact hf
    iexact Hr
  iframe HcrS Hat
  iexact Hp'

theorem part14_spec (K : Dev nD × Fin 39 → ℕ) (c : Dev nD) (g : Buf (Elt F) (oM.view.loc (c : Thread nD τ))) (v2 v5 v8 v9 v10 v11 : BitVec 32)
    (W : Waits sig Unit) (Ψ : sProp 𝕄) :
    iprop(records m K ∗ levAts L lv ∗ owes (c : Thread nD τ) (OyUp c 2) W ∗ xvP m c ∗ outP c g
        ∗ heldRead c xr5 fullShare (sx5 m (px c)) ∗ heldAny (py c) yr5 fullShare ∗ tkD c 29 ∗ tkD (py c) 36 ∗ crD c 19 ∗ at0 c 19
        ∗ (((∃ W', owes (c : Thread nD τ) (OyUp c 1) W') ∗ xvP m c ∗ outP c (w64 g (k0_off1 c 320#32) (k0_off1_inb c 5) (k0_pay19 (ldX64 m c (k0_off1 c 320#32) (k0_off1_inb c 5)) (sx5 m (px c))))
            ∗ heldRead c xr5 fullShare.right (sx5 m (px c)) ∗ crD c 29 ∗ at1 c 19 ∗ heldRead c xr6 fullShare (sx6 m (px c))) -∗ Ψ))
      ⊢ wp frame (wpE (defs₀ (F := F)) 𝒱₀ c none) Set.univ (onWhole k0_part14 c v2 v5 v8 v9 v10 v11) (fun _ => Ψ) := by
  simp only [onWhole, k0_part14_eq_skeleton]; unfold k0_part14_skel
  simp only [Prog.lift, Prog.bind_op, Prog.bind_ret, Prog.pure_eq_ret]
  unfold xvP outP crD at0 at1 tkD
  iintro ⟨#HR, #Hlev, HO, Hxv, Hout, Hxr, Hyr, HtS, HtR, Hcr, Hat, Hk⟩
  ihave Hxr' := (heldRead_open c xr5 fullShare (sx5 m (px c))) $$ Hxr
  icases Hxr' with ⟨%f, %hf, Hxr⟩
  ihave Hh := (held_halve c xr5 f).1 $$ Hxr
  icases Hh with ⟨Hl, Hr⟩
  have eS : semAt cc0_scratch7 5 inb_S7_S1_5 = dI 29 := by decide
  have eR : semAt cc0_scratch8 5 inb_S7_S1_5 = dI 36 := by decide
  have eW : semAt cc0_scratch6 6 inb_S11_S1_6 = dI 19 := by decide
  simp only [eS, eR, eW]
  iapply (send_chunk m K c (py c) _ (Fin.ext (k0_dev19_eq c)) xr5 yr5 29 36 fullShare.left f _ _ hf (OyUp c 2) (OyUp c 1) rfl W rfl rfl rfl rfl (by rw [py_py])) $$ HR Hl Hyr HO HtS HtR
  iintro ⟨HcrS, HO⟩
  iapply (load_whole c xvM (View.set_whole _)) $$ Hxv; iintro Hxv
  iapply (wp_load 𝒱₀ (c : Thread nD τ) none Set.univ (m := xrM) (S := xr5.view.set) (View.set_slice _ _).symm.subset) $$ Hr; iintro Hr
  rw [show xrM.view.readAt (Elt F) (Rect.unit (s := S608x512) ![320, 0] S64x512.size inb_S608x512_S64x512_320_0).toLoadRect f = sx5 m (px c) from hf]
  iapply (load_whole c oM (View.set_whole _)) $$ Hout; iintro Hout
  iapply (store_whole c oM (r := Rect.unit (s := S1024x512) (k0_off1 c 320#32) S64x512.size (k0_off1_inb c 5))) $$ Hout; iintro Hout
  iapply (wait_dma m K c 19 (OyUp c 1) _ 3 (fun g u h => OyUp_pos 1 h) (src := xs6) (dst := xr6) rfl) $$ HR Hlev Hcr HO Hat
  iintro ⟨HO, Hat, Hp⟩
  ihave Hp' := (Entails.of_eq (show payD m c 19 = heldRead c xr6 fullShare (sx6 m (px c)) from rfl)) $$ Hp
  rw [wp_ret]; imodintro
  iapply Hk
  isplitl [HO]; · iexists _; iexact HO
  isplitl [Hxv]; · iexact Hxv
  isplitl [Hout]; · iexact Hout
  isplitl [Hr]
  · iapply (heldRead_close c xr5 fullShare.right (sx5 m (px c))); iexists f; isplitr; · ipureintro; exact hf
    iexact Hr
  iframe HcrS Hat
  iexact Hp'

theorem seg2a (K : Dev nD × Fin 39 → ℕ) (c : Dev nD) (g : Buf (Elt F) (oM.view.loc (c : Thread nD τ))) (v2 v5 v8 v9 v10 v11 : BitVec 32) (Φ : sProp 𝕄) :
    iprop(St1 m K c g ∗ (St1b m K c g -∗ Φ)) ⊢
      wp frame (wpE (defs₀ (F := F)) 𝒱₀ c none) Set.univ (onWhole k0_part9 c v2 v5 v8 v9 v10 v11) (fun _ =>
      wp frame (wpE (defs₀ (F := F)) 𝒱₀ c none) Set.univ (onWhole k0_part10 c v2 v5 v8 v9 v10 v11) (fun _ =>
      wp frame (wpE (defs₀ (F := F)) 𝒱₀ c none) Set.univ (onWhole k0_part11 c v2 v5 v8 v9 v10 v11) (fun _ =>
      wp frame (wpE (defs₀ (F := F)) 𝒱₀ c none) Set.univ (onWhole k0_part12 c v2 v5 v8 v9 v10 v11) (fun _ =>
      wp frame (wpE (defs₀ (F := F)) 𝒱₀ c none) Set.univ (onWhole k0_part13 c v2 v5 v8 v9 v10 v11) (fun _ =>
      wp frame (wpE (defs₀ (F := F)) 𝒱₀ c none) Set.univ (onWhole k0_part14 c v2 v5 v8 v9 v10 v11) (fun _ => Φ)))))) := by
  unfold St1 St1b yrAll out6
  simp only [bigSepL_cons_cons, bigSepL_singleton, sep_notation]
  iintro ⟨⟨#HR, #Hlev, ⟨%W, HO⟩, Hxv, Harg, Hout, ⟨c2, c3, c4, c5, c6, c7, c8, c9, c10, c11, c12⟩, ⟨a2, a3, a4, a5, a6, a7, a8, a9, a10, a11, a12, a14, a15, a16, a17, a18, a19, a20, a21, a22, a23, a24, a25, a26, a27, a28, a29, a30, a31, a32, a33, a34, a35, a36, a37⟩, ⟨b1, b13⟩, Hfin, ⟨t24, t25, t26, t27, t28, t29, t30⟩, ⟨u31, u32, u33, u34, u35, u36, u37⟩, ⟨d14, d15, d16, d17, d18, d19, d20, d21, d22, d23, d31, d32, d33, d34, d35, d36, d37⟩, ⟨y0, y1, y2, y3, y4, y5, y6⟩, Hx0⟩, Hk⟩
  iapply (part9_spec m K c _ v2 v5 v8 v9 v10 v11 W _)
  iframe HR Hlev HO Hxv
  isplitl [Hout]; · iexact Hout
  iframe Hx0 y0 t24 u31 d14 a14
  iintro ⟨⟨%W1, HO⟩, Hxv, Hout, Hx0, c24, b14, Hx1⟩
  iapply (part10_spec m K c _ v2 v5 v8 v9 v10 v11 W1 _)
  iframe HR Hlev HO Hxv
  isplitl [Hout]; · iexact Hout
  iframe Hx1 y1 t25 u32 d15 a15
  iintro ⟨⟨%W2, HO⟩, Hxv, Hout, Hx1, c25, b15, Hx2⟩
  iapply (part11_spec m K c _ v2 v5 v8 v9 v10 v11 W2 _)
  iframe HR Hlev HO Hxv
  isplitl [Hout]; · iexact Hout
  iframe Hx2 y2 t26 u33 d16 a16
  iintro ⟨⟨%W3, HO⟩, Hxv, Hout, Hx2, c26, b16, Hx3⟩
  iapply (part12_spec m K c _ v2 v5 v8 v9 v10 v11 W3 _)
  iframe HR Hlev HO Hxv
  isplitl [Hout]; · iexact Hout
  iframe Hx3 y3 t27 u34 d17 a17
  iintro ⟨⟨%W4, HO⟩, Hxv, Hout, Hx3, c27, b17, Hx4⟩
  iapply (part13_spec m K c _ v2 v5 v8 v9 v10 v11 W4 _)
  iframe HR Hlev HO Hxv
  isplitl [Hout]; · iexact Hout
  iframe Hx4 y4 t28 u35 d18 a18
  iintro ⟨⟨%W5, HO⟩, Hxv, Hout, Hx4, c28, b18, Hx5⟩
  iapply (part14_spec m K c _ v2 v5 v8 v9 v10 v11 W5 _)
  iframe HR Hlev HO Hxv
  isplitl [Hout]; · iexact Hout
  iframe Hx5 y5 t29 u36 d19 a19
  iintro ⟨⟨%W6, HO⟩, Hxv, Hout, Hx5, c29, b19, Hx6⟩
  iapply Hk
  iframe HR Hlev
  isplitl [HO]; · iexists W6; iexact HO
  iframe Hxv Harg
  isplitl [Hout]; · iexact Hout
  isplitl [c2 c3 c4 c5 c6 c7 c8 c9 c10 c11 c12 c24 c25 c26 c27 c28 c29]
  · isplitl [c2]; · iexact c2
    iframe c3 c4 c5 c6 c7 c8 c9 c10 c11 c12 c24 c25 c26 c27 c28
    iexact c29
  isplitl [a2 a3 a4 a5 a6 a7 a8 a9 a10 a11 a12 a20 a21 a22 a23 a24 a25 a26 a27 a28 a29 a30 a31 a32 a33 a34 a35 a36 a37]
  · isplitl [a2]; · iexact a2
    iframe a3 a4 a5 a6 a7 a8 a9 a10 a11 a12 a20 a21 a22 a23 a24 a25 a26 a27 a28 a29 a30 a31 a32 a33 a34 a35 a36
    iexact a37
  isplitl [b1 b13 b14 b15 b16 b17 b18 b19]
  · isplitl [b1]; · iexact b1
    iframe b13 b14 b15 b16 b17 b18
    iexact b19
  iframe Hfin t30 u37
  isplitl [d20 d21 d22 d23 d31 d32 d33 d34 d35 d36 d37]
  · isplitl [d20]; · iexact d20
    iframe d21 d22 d23 d31 d32 d33 d34 d35 d36
    iexact d37
  iframe y6 Hx0 Hx1 Hx2 Hx3 Hx4 Hx5
  iexact Hx6

/-- info: 'Cert.KernelIdeal.AR.seg2a' depends on axioms: [propext, Classical.choice, Quot.sound] -/
#guard_msgs in #print axioms seg2a

end Cert.KernelIdeal.AR

end
-- ==== Proof.Seg2bAlt.lean ====
import proofs.«900705_g7700000000000706_dist_ar_v7x_xyz2x2x4_x_m1024_n512_bf16_1_alg».proof.Proof.States2
import proofs.«900705_g7700000000000706_dist_ar_v7x_xyz2x2x4_x_m1024_n512_bf16_1_alg».proof.Proof.Regions

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

theorem part15_spec_alt (K : Dev nD × Fin 39 → ℕ) (c : Dev nD) (g : Buf (Elt F) (oM.view.loc (c : Thread nD τ))) (v2 v5 v8 v9 v10 v11 v13 : BitVec 32)
    (W : Waits sig Unit) (Ψ : BitVec 32 → sProp 𝕄) :
    iprop(records m K ∗ levAts L lv ∗ owes (c : Thread nD τ) (OyUp c 1) W ∗ xvP m c ∗ outP c g ∗ heldRead c xr6 fullShare (sx6 m (px c)) ∗ heldAny (py c) yr6 fullShare ∗ tkD c 30 ∗ tkD (py c) 37 ∗ crD c 20 ∗ at0 c 20
        ∗ (((∃ W', owes (c : Thread nD τ) (Ofin c) W') ∗ xvP m c ∗ outP c (w64 (w32 g (k0_off2 c 384#32) (k0_off2_inb c 0) (k0_pay20 (ldX32 m c (k0_off2 c 384#32) (k0_off2_inb c 0)) (sx6 m (px c)))) (k0_off1 c 416#32) (k0_off1_inb c 6) (k0_pay21 (ldX64 m c (k0_off1 c 416#32) (k0_off1_inb c 6)) (sx7 m (px c)))) ∗ heldRead c xr6 fullShare.right (sx6 m (px c)) ∗ crD c 30 ∗ at1 c 20 ∗ heldRead c xr7 fullShare (sx7 m (px c))) -∗ Ψ (Scalar.addi 0#32 (Scalar.muli v9 8#32))))
      ⊢ wp frame (wpE (defs₀ (F := F)) 𝒱₀ c none) Set.univ (onWhole k0_part15 c v5 v8 v9 v11) (Ψ) := by
  simp only [onWhole, k0_part15_eq_skeleton]; unfold k0_part15_skel
  simp only [Prog.lift, Prog.bind_op, Prog.bind_ret, Prog.pure_eq_ret]
  unfold xvP outP crD at0 at1 tkD
  iintro ⟨#HR, #Hlev, HO, Hxv, Hout, Hq6, Hyr6, HtS6, HtR6, Hc20, Ha20, Hk⟩
  ihave Hq6' := (heldRead_open c xr6 fullShare (sx6 m (px c))) $$ Hq6
  icases Hq6' with ⟨%f6, %hf6, Hr6⟩
  have eS6 : semAt cc0_scratch7 6 inb_S7_S1_6 = dI 30 := by decide
  have eR6 : semAt cc0_scratch8 6 inb_S7_S1_6 = dI 37 := by decide
  have eW7 : semAt cc0_scratch6 7 inb_S11_S1_7 = dI 20 := by decide
  simp only [eS6, eR6, eW7]
  ihave Hh6 := (held_halve c xr6 f6).1 $$ Hr6
  icases Hh6 with ⟨Hl6, Hr6⟩
  iapply (send_chunk m K c (py c) _ (Fin.ext (k0_dev20_eq c)) xr6 yr6 30 37 fullShare.left f6 _ _ hf6 (OyUp c 1) (Ofin c) rfl W rfl rfl rfl rfl (by rw [py_py])) $$ HR Hl6 Hyr6 HO HtS6 HtR6
  iintro ⟨HcrS6, HO⟩
  iapply (load_whole c xvM (View.set_whole _)) $$ Hxv; iintro Hxv
  iapply (wp_load 𝒱₀ (c : Thread nD τ) none Set.univ (m := xrM) (S := xr6.view.set) (View.set_slice _ _).symm.subset) $$ Hr6; iintro Hr6
  rw [show xrM.view.readAt (Elt F) (Rect.unit (s := S608x512) ![384, 0] S32x512.size inb_S608x512_S32x512_384_0).toLoadRect f6 = sx6 m (px c) from hf6]
  iapply (load_whole c oM (View.set_whole _)) $$ Hout; iintro Hout
  iapply (store_whole c oM (r := Rect.unit (s := S1024x512) (k0_off2 c 384#32) S32x512.size (k0_off2_inb c 0))) $$ Hout; iintro Hout
  iapply (wait_dma m K c 20 (Ofin c) _ 4 (fun g u h => Ofin_pos h) (src := xs7) (dst := xr7) rfl) $$ HR Hlev Hc20 HO Ha20
  iintro ⟨HO, Ha20, Hp7⟩
  ihave Hp7' := (Entails.of_eq (show payD m c 20 = heldRead c xr7 fullShare (sx7 m (px c)) from rfl)) $$ Hp7
  ihave Hp7'' := (heldRead_open c xr7 fullShare (sx7 m (px c))) $$ Hp7'
  icases Hp7'' with ⟨%f7, %hf7, Hr7⟩
  iapply (load_whole c xvM (View.set_whole _)) $$ Hxv; iintro Hxv
  iapply (wp_load 𝒱₀ (c : Thread nD τ) none Set.univ (m := xrM) (S := xr7.view.set) (View.set_slice _ _).symm.subset) $$ Hr7; iintro Hr7
  rw [show xrM.view.readAt (Elt F) (Rect.unit (s := S608x512) ![416, 0] S64x512.size inb_S608x512_S64x512_416_0).toLoadRect f7 = sx7 m (px c) from hf7]
  iapply (load_whole c oM (View.set_whole _)) $$ Hout; iintro Hout
  iapply (store_whole c oM (r := Rect.unit (s := S1024x512) (k0_off1 c 416#32) S64x512.size (k0_off1_inb c 6))) $$ Hout; iintro Hout
  rw [wp_ret]; imodintro
  iapply Hk
  isplitl [HO]
  · iexists _; iexact HO
  isplitl [Hxv]
  · iexact Hxv
  isplitl [Hout]
  · iexact Hout
  isplitl [Hr6]
  · iapply (heldRead_close c xr6 fullShare.right (sx6 m (px c))); iexists f6; isplitr; · ipureintro; exact hf6
    iexact Hr6
  isplitl [HcrS6]
  · iexact HcrS6
  isplitl [Ha20]
  · iexact Ha20
  iapply (heldRead_close c xr7 fullShare (sx7 m (px c))); iexists f7; isplitr; · ipureintro; exact hf7
  iexact Hr7

theorem part16_spec_alt (K : Dev nD × Fin 39 → ℕ) (c : Dev nD) (g : Buf (Elt F) (oM.view.loc (c : Thread nD τ))) (v2 v5 v8 v9 v10 v11 v13 : BitVec 32) (v475 : BitVec 32)
    (W : Waits sig Unit) (Ψ : (Σ' (v504 : BitVec 32), Vec F S64x512 .f32) → sProp 𝕄) :
    iprop(records m K ∗ levAts L lv ∗ owes (c : Thread nD τ) (Ofin c) W ∗ xvP m c ∗ outP c g ∗ crD c 21 ∗ at0 c 21 ∗ crD c 22 ∗ at0 c 22
        ∗ (((∃ W', owes (c : Thread nD τ) (Ofin c) W') ∗ xvP m c ∗ outP c (w32 g (k0_off2 c 480#32) (k0_off2_inb c 1) (k0_pay22 (ldX32 m c (k0_off2 c 480#32) (k0_off2_inb c 1)) (sx8 m (px c)))) ∗ at1 c 21 ∗ heldRead c xr8 fullShare (sx8 m (px c)) ∗ at1 c 22 ∗ heldRead c xr9 fullShare (sx9 m (px c))) -∗ Ψ ⟨Scalar.addi (Scalar.addi v13 0#32) 416#32, ldX64 m c (k0_off3 c) (k0_off3_inb c)⟩))
      ⊢ wp frame (wpE (defs₀ (F := F)) 𝒱₀ c none) Set.univ (onWhole k0_part16 c v5 v8 v9 v11 v13 v475) (Ψ) := by
  simp only [onWhole, k0_part16_eq_skeleton]; unfold k0_part16_skel
  simp only [Prog.lift, Prog.bind_op, Prog.bind_ret, Prog.pure_eq_ret]
  unfold ldX64
  unfold xvP outP crD at0 at1
  iintro ⟨#HR, #Hlev, HO, Hxv, Hout, Hc21, Ha21, Hc22, Ha22, Hk⟩
  have eW8 : semAt cc0_scratch6 8 inb_S11_S1_8 = dI 21 := by decide
  have eW9 : semAt cc0_scratch6 9 inb_S11_S1_9 = dI 22 := by decide
  simp only [eW8, eW9]
  iapply (wait_dma m K c 21 (Ofin c) _ 4 (fun g u h => Ofin_pos h) (src := xs8) (dst := xr8) rfl) $$ HR Hlev Hc21 HO Ha21
  iintro ⟨HO, Ha21, Hp8⟩
  ihave Hp8' := (Entails.of_eq (show payD m c 21 = heldRead c xr8 fullShare (sx8 m (px c)) from rfl)) $$ Hp8
  ihave Hp8'' := (heldRead_open c xr8 fullShare (sx8 m (px c))) $$ Hp8'
  icases Hp8'' with ⟨%f8, %hf8, Hr8⟩
  iapply (load_whole c xvM (View.set_whole _)) $$ Hxv; iintro Hxv
  iapply (wp_load 𝒱₀ (c : Thread nD τ) none Set.univ (m := xrM) (S := xr8.view.set) (View.set_slice _ _).symm.subset) $$ Hr8; iintro Hr8
  rw [show xrM.view.readAt (Elt F) (Rect.unit (s := S608x512) ![480, 0] S32x512.size inb_S608x512_S32x512_480_0).toLoadRect f8 = sx8 m (px c) from hf8]
  iapply (load_whole c oM (View.set_whole _)) $$ Hout; iintro Hout
  iapply (store_whole c oM (r := Rect.unit (s := S1024x512) (k0_off2 c 480#32) S32x512.size (k0_off2_inb c 1))) $$ Hout; iintro Hout
  iapply (wait_dma m K c 22 (Ofin c) _ 4 (fun g u h => Ofin_pos h) (src := xs9) (dst := xr9) rfl) $$ HR Hlev Hc22 HO Ha22
  iintro ⟨HO, Ha22, Hp9⟩
  ihave Hp9' := (Entails.of_eq (show payD m c 22 = heldRead c xr9 fullShare (sx9 m (px c)) from rfl)) $$ Hp9
  ihave Hp9'' := (heldRead_open c xr9 fullShare (sx9 m (px c))) $$ Hp9'
  icases Hp9'' with ⟨%f9, %hf9, Hr9⟩
  iapply (load_whole c xvM (View.set_whole _)) $$ Hxv; iintro Hxv
  rw [wp_ret]; imodintro
  iapply Hk
  isplitl [HO]
  · iexists _; iexact HO
  isplitl [Hxv]
  · iexact Hxv
  isplitl [Hout]
  · iexact Hout
  isplitl [Ha21]
  · iexact Ha21
  isplitl [Hr8]
  · iapply (heldRead_close c xr8 fullShare (sx8 m (px c))); iexists f8; isplitr; · ipureintro; exact hf8
    iexact Hr8
  isplitl [Ha22]
  · iexact Ha22
  iapply (heldRead_close c xr9 fullShare (sx9 m (px c))); iexists f9; isplitr; · ipureintro; exact hf9
  iexact Hr9

theorem part17_spec_alt (K : Dev nD × Fin 39 → ℕ) (c : Dev nD) (g : Buf (Elt F) (oM.view.loc (c : Thread nD τ))) (v2 v5 v8 v9 v10 v11 v13 : BitVec 32) (v504 : BitVec 32)
    (W : Waits sig Unit) (Ψ : sProp 𝕄) :
    iprop(records m K ∗ levAts L lv ∗ owes (c : Thread nD τ) (Ofin c) W ∗ xvP m c ∗ outP c g ∗ heldRead c xr9 fullShare (sx9 m (px c)) ∗ crD c 23 ∗ at0 c 23
        ∗ (((∃ W', owes (c : Thread nD τ) (Ofin c) W') ∗ xvP m c ∗ outP c (w32 (w64 g (k0_off3 c) (k0_off3_inb c) (k0_pay23 (ldX64 m c (k0_off3 c) (k0_off3_inb c)) (sx9 m (px c)))) (k0_off4 c) (k0_off4_inb c) (k0_pay24 (ldX32 m c (k0_off4 c) (k0_off4_inb c)) (sx10 m (px c)))) ∗ heldRead c xr9 fullShare (sx9 m (px c)) ∗ at1 c 23 ∗ heldRead c xr10 fullShare (sx10 m (px c))) -∗ Ψ))
      ⊢ wp frame (wpE (defs₀ (F := F)) 𝒱₀ c none) Set.univ (onWhole k0_part17 c v2 v5 v8 v9 v10 v13 v504 (ldX64 m c (k0_off3 c) (k0_off3_inb c))) (fun _ => Ψ) := by
  simp only [onWhole, k0_part17_eq_skeleton]; unfold k0_part17_skel
  simp only [Prog.lift, Prog.bind_op, Prog.bind_ret, Prog.pure_eq_ret]
  unfold xvP outP crD at0 at1
  iintro ⟨#HR, #Hlev, HO, Hxv, Hout, Hq9, Hc23, Ha23, Hk⟩
  ihave Hq9' := (heldRead_open c xr9 fullShare (sx9 m (px c))) $$ Hq9
  icases Hq9' with ⟨%f9, %hf9, Hr9⟩
  have eW10 : semAt cc0_scratch6 10 inb_S11_S1_10 = dI 23 := by decide
  simp only [eW10]
  iapply (wp_load 𝒱₀ (c : Thread nD τ) none Set.univ (m := xrM) (S := xr9.view.set) (View.set_slice _ _).symm.subset) $$ Hr9; iintro Hr9
  rw [show xrM.view.readAt (Elt F) (Rect.unit (s := S608x512) ![512, 0] S64x512.size inb_S608x512_S64x512_512_0).toLoadRect f9 = sx9 m (px c) from hf9]
  iapply (load_whole c oM (View.set_whole _)) $$ Hout; iintro Hout
  iapply (store_whole c oM (r := Rect.unit (s := S1024x512) (k0_off3 c) S64x512.size (k0_off3_inb c))) $$ Hout; iintro Hout
  iapply (wait_dma m K c 23 (Ofin c) _ 4 (fun g u h => Ofin_pos h) (src := xs10) (dst := xr10) rfl) $$ HR Hlev Hc23 HO Ha23
  iintro ⟨HO, Ha23, Hp10⟩
  ihave Hp10' := (Entails.of_eq (show payD m c 23 = heldRead c xr10 fullShare (sx10 m (px c)) from rfl)) $$ Hp10
  ihave Hp10'' := (heldRead_open c xr10 fullShare (sx10 m (px c))) $$ Hp10'
  icases Hp10'' with ⟨%f10, %hf10, Hr10⟩
  iapply (load_whole c xvM (View.set_whole _)) $$ Hxv; iintro Hxv
  iapply (wp_load 𝒱₀ (c : Thread nD τ) none Set.univ (m := xrM) (S := xr10.view.set) (View.set_slice _ _).symm.subset) $$ Hr10; iintro Hr10
  rw [show xrM.view.readAt (Elt F) (Rect.unit (s := S608x512) ![576, 0] S32x512.size inb_S608x512_S32x512_576_0).toLoadRect f10 = sx10 m (px c) from hf10]
  iapply (load_whole c oM (View.set_whole _)) $$ Hout; iintro Hout
  iapply (store_whole c oM (r := Rect.unit (s := S1024x512) (k0_off4 c) S32x512.size (k0_off4_inb c))) $$ Hout; iintro Hout
  rw [wp_ret]; imodintro
  iapply Hk
  isplitl [HO]
  · iexists _; iexact HO
  isplitl [Hxv]
  · iexact Hxv
  isplitl [Hout]
  · iexact Hout
  isplitl [Hr9]
  · iapply (heldRead_close c xr9 fullShare (sx9 m (px c))); iexists f9; isplitr; · ipureintro; exact hf9
    iexact Hr9
  isplitl [Ha23]
  · iexact Ha23
  iapply (heldRead_close c xr10 fullShare (sx10 m (px c))); iexists f10; isplitr; · ipureintro; exact hf10
  iexact Hr10

theorem seg2b_alt (K : Dev nD × Fin 39 → ℕ) (c : Dev nD) (g : Buf (Elt F) (oM.view.loc (c : Thread nD τ))) (v2 v5 v8 v9 v10 v11 v13 : BitVec 32) (Φ : sProp 𝕄) :
    iprop(St1b m K c g ∗ (St2 m K c g -∗ Φ)) ⊢
      wp frame (wpE (defs₀ (F := F)) 𝒱₀ c none) Set.univ (onWhole k0_part15 c v5 v8 v9 v11) (fun v475 =>
      wp frame (wpE (defs₀ (F := F)) 𝒱₀ c none) Set.univ (onWhole k0_part16 c v5 v8 v9 v11 v13 v475) (fun x =>
      wp frame (wpE (defs₀ (F := F)) 𝒱₀ c none) Set.univ (onWhole k0_part17 c v2 v5 v8 v9 v10 v13 x.fst x.snd) (fun _ => Φ))) := by
  unfold St1b St2 outA out6 xrLanded
  simp only [bigSepL_cons_cons, bigSepL_singleton, sep_notation]
  iintro ⟨⟨#HR, #Hlev, ⟨%W0, HO⟩, Hxv, Harg, Hout, ⟨c2, c3, c4, c5, c6, c7, c8, c9, c10, c11, c12, c24, c25, c26, c27, c28, c29⟩, ⟨a2, a3, a4, a5, a6, a7, a8, a9, a10, a11, a12, a20, a21, a22, a23, Arest⟩, ⟨b1, b13, b14, b15, b16, b17, b18, b19⟩, Hfin, t30, u37, ⟨d20, d21, d22, d23, Drest⟩, y6, Hx0, Hx1, Hx2, Hx3, Hx4, Hx5, Hx6⟩, Hk⟩
  iapply (part15_spec_alt m K c _ v2 v5 v8 v9 v10 v11 v13 W0 _)
  iframe HR Hlev HO Hxv Hout Hx6 y6 t30 u37 d20 a20
  iintro ⟨⟨%W1, HO⟩, Hxv, Hout, Hx6, c30, b20, Hx7⟩
  iapply (part16_spec_alt m K c _ v2 v5 v8 v9 v10 v11 v13 _ W1 _)
  iframe HR Hlev HO Hxv Hout d21 a21 d22 a22
  iintro ⟨⟨%W2, HO⟩, Hxv, Hout, b21, Hx8, b22, Hx9⟩
  iapply (part17_spec_alt m K c _ v2 v5 v8 v9 v10 v11 v13 _ W2 _)
  iframe HR Hlev HO Hxv Hout Hx9 d23 a23
  iintro ⟨⟨%W3, HO⟩, Hxv, Hout, Hx9, b23, Hx10⟩
  iapply Hk
  iframe HR Hlev
  isplitl [HO]; · iexists W3; iexact HO
  iframe Hxv Harg Hout
  isplitl [c2 c3 c4 c5 c6 c7 c8 c9 c10 c11 c12 c24 c25 c26 c27 c28 c29 c30]
  · isplitl [c2]; · iexact c2
    iframe c3 c4 c5 c6 c7 c8 c9 c10 c11 c12 c24 c25 c26 c27 c28 c29
    iexact c30
  isplitl [a2 a3 a4 a5 a6 a7 a8 a9 a10 a11 a12 Arest]
  · isplitl [a2]; · iexact a2
    iframe a3 a4 a5 a6 a7 a8 a9 a10 a11 a12
    iexact Arest
  isplitl [b1 b13 b14 b15 b16 b17 b18 b19 b20 b21 b22 b23]
  · isplitl [b1]; · iexact b1
    iframe b13 b14 b15 b16 b17 b18 b19 b20 b21 b22
    iexact b23
  iframe Hfin Drest Hx0 Hx1 Hx2 Hx3 Hx4 Hx5 Hx6 Hx7 Hx8 Hx9
  iexact Hx10

/-- info: 'Cert.KernelIdeal.AR.seg2b_alt' depends on axioms: [propext, Classical.choice, Quot.sound] -/
#guard_msgs in #print axioms seg2b_alt

end Cert.KernelIdeal.AR

end
-- ==== Proof.OutCover.lean ====
import proofs.«900705_g7700000000000706_dist_ar_v7x_xyz2x2x4_x_m1024_n512_bf16_1_alg».proof.Proof.Proto

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem k0_off1_eq : ∀ c : Dev nD, ∀ r : Fin 7, k0_off1 c (k0_off1_at r) = ![512 * ((c.val / 4) % 2) + (k0_off1_at r).toNat, 0] := by
  decide +kernel

theorem off1_0 (c : Dev nD) : k0_off1 c 0#32 = ![512 * ((c.val / 4) % 2) + 0, 0] := k0_off1_eq c 0
theorem off1_1 (c : Dev nD) : k0_off1 c 64#32 = ![512 * ((c.val / 4) % 2) + 64, 0] := k0_off1_eq c 1
theorem off1_2 (c : Dev nD) : k0_off1 c 128#32 = ![512 * ((c.val / 4) % 2) + 128, 0] := k0_off1_eq c 2
theorem off1_3 (c : Dev nD) : k0_off1 c 192#32 = ![512 * ((c.val / 4) % 2) + 192, 0] := k0_off1_eq c 3
theorem off1_4 (c : Dev nD) : k0_off1 c 256#32 = ![512 * ((c.val / 4) % 2) + 256, 0] := k0_off1_eq c 4
theorem off1_5 (c : Dev nD) : k0_off1 c 320#32 = ![512 * ((c.val / 4) % 2) + 320, 0] := k0_off1_eq c 5
theorem off1_6 (c : Dev nD) : k0_off1 c 416#32 = ![512 * ((c.val / 4) % 2) + 416, 0] := k0_off1_eq c 6
theorem off2_0 (c : Dev nD) : k0_off2 c 384#32 = ![512 * ((c.val / 4) % 2) + 96 * 0 + 384, 0] := k0_off2_eq c ⟨0, by decide⟩
theorem off2_1 (c : Dev nD) : k0_off2 c 480#32 = ![512 * ((c.val / 4) % 2) + 96 * 1 + 384, 0] := k0_off2_eq c ⟨1, by decide⟩
theorem off5_0 (c : Dev nD) : k0_off5 c 0#32 = ![(64 * 0 + 512) - 512 * ((c.val / 4) % 2), 0] := k0_off5_eq c ⟨0, by decide⟩
theorem off5_1 (c : Dev nD) : k0_off5 c 64#32 = ![(64 * 1 + 512) - 512 * ((c.val / 4) % 2), 0] := k0_off5_eq c ⟨1, by decide⟩
theorem off5_2 (c : Dev nD) : k0_off5 c 128#32 = ![(64 * 2 + 512) - 512 * ((c.val / 4) % 2), 0] := k0_off5_eq c ⟨2, by decide⟩
theorem off5_3 (c : Dev nD) : k0_off5 c 192#32 = ![(64 * 3 + 512) - 512 * ((c.val / 4) % 2), 0] := k0_off5_eq c ⟨3, by decide⟩
theorem off5_4 (c : Dev nD) : k0_off5 c 256#32 = ![(64 * 4 + 512) - 512 * ((c.val / 4) % 2), 0] := k0_off5_eq c ⟨4, by decide⟩
theorem off5_5 (c : Dev nD) : k0_off5 c 320#32 = ![(64 * 5 + 512) - 512 * ((c.val / 4) % 2), 0] := k0_off5_eq c ⟨5, by decide⟩

theorem write_agree {r : Rect S1024x512} (f f' : (cc0_stg0_0 : Ref sig .tc).ty.Contents (Elt F)) (w : r.shape.Idx → Elt F .bf16)
    (i : S1024x512.Idx) (h : i ∉ r.set → f i = f' i) :
    (oM.access r).write (Elt F) f w Finset.univ i = (oM.access r).write (Elt F) f' w Finset.univ i := by
  by_cases hi : i ∈ (oM.access r).setOn Finset.univ
  · obtain ⟨x, -, rfl⟩ := Finset.mem_map.mp hi
    rw [View.write_emb_of_mem _ _ (Finset.mem_univ x), View.write_emb_of_mem _ _ (Finset.mem_univ x)]
  · rw [View.write_of_not_mem _ _ _ hi, View.write_of_not_mem _ _ _ hi]
    refine h fun hr => hi ?_
    rw [View.setOn_univ, View.set_slice_whole]; exact hr

theorem w64_agree (f f' : (cc0_stg0_0 : Ref sig .tc).ty.Contents (Elt F)) (off : Fin 2 → ℕ) (h : ∀ a, off a + S64x512.size a ≤ S1024x512.size a)
    (v : Vec F S64x512 .bf16) (i : S1024x512.Idx)
    (hh : ¬ (∀ a, off a ≤ i a ∧ (i a : ℕ) < off a + S64x512.size a) → f i = f' i) : w64 f off h v i = w64 f' off h v i := by
  unfold w64
  exact write_agree (r := Rect.unit (s := S1024x512) off S64x512.size h) f f' v i fun hn => hh fun ha => hn (Rect.mem_set_unit.mpr ha)

theorem w32_agree (f f' : (cc0_stg0_0 : Ref sig .tc).ty.Contents (Elt F)) (off : Fin 2 → ℕ) (h : ∀ a, off a + S32x512.size a ≤ S1024x512.size a)
    (v : Vec F S32x512 .bf16) (i : S1024x512.Idx)
    (hh : ¬ (∀ a, off a ≤ i a ∧ (i a : ℕ) < off a + S32x512.size a) → f i = f' i) : w32 f off h v i = w32 f' off h v i := by
  unfold w32
  exact write_agree (r := Rect.unit (s := S1024x512) off S32x512.size h) f f' v i fun hn => hh fun ha => hn (Rect.mem_set_unit.mpr ha)

theorem outC_indep (o : Dev nD) (d d' : (cc0_stg0_0 : Ref sig .tc).ty.Contents (Elt F)) : outC m o d = outC m o d' := by
  funext i
  unfold outC outA out6
  refine w32_agree _ _ _ _ _ i fun h18 => ?_
  refine w64_agree _ _ _ _ _ i fun h17 => ?_
  refine w64_agree _ _ _ _ _ i fun h16 => ?_
  refine w64_agree _ _ _ _ _ i fun h15 => ?_
  refine w64_agree _ _ _ _ _ i fun h14 => ?_
  refine w64_agree _ _ _ _ _ i fun h13 => ?_
  refine w64_agree _ _ _ _ _ i fun h12 => ?_
  refine w32_agree _ _ _ _ _ i fun h11 => ?_
  refine w64_agree _ _ _ _ _ i fun h10 => ?_
  refine w32_agree _ _ _ _ _ i fun h9 => ?_
  refine w64_agree _ _ _ _ _ i fun h8 => ?_
  refine w32_agree _ _ _ _ _ i fun h7 => ?_
  refine w64_agree _ _ _ _ _ i fun h6 => ?_
  refine w64_agree _ _ _ _ _ i fun h5 => ?_
  refine w64_agree _ _ _ _ _ i fun h4 => ?_
  refine w64_agree _ _ _ _ _ i fun h3 => ?_
  refine w64_agree _ _ _ _ _ i fun h2 => ?_
  refine w64_agree _ _ _ _ _ i fun h1 => ?_
  exfalso
  have hi0 : (i 0 : ℕ) < 1024 := (i 0).isLt
  have hi1 : (i 1 : ℕ) < 512 := (i 1).isLt
  simp only [off1_0, off1_1, off1_2, off1_3, off1_4, off1_5, off1_6, off2_0, off2_1, k0_off3_eq, k0_off4_eq,
    off5_0, off5_1, off5_2, off5_3, off5_4, off5_5, k0_off6_eq, Fin.forall_fin_two, Matrix.cons_val_zero, Matrix.cons_val_one] at h1 h2 h3 h4 h5 h6 h7 h8 h9 h10 h11 h12 h13 h14 h15 h16 h17 h18
  omega

/-- info: 'Cert.KernelIdeal.AR.outC_indep' depends on axioms: [propext, Classical.choice, Quot.sound] -/
#guard_msgs in #print axioms outC_indep

end Cert.KernelIdeal.AR

end
-- ==== Proof.Seg3.lean ====
import proofs.«900705_g7700000000000706_dist_ar_v7x_xyz2x2x4_x_m1024_n512_bf16_1_alg».proof.Proof.States
import proofs.«900705_g7700000000000706_dist_ar_v7x_xyz2x2x4_x_m1024_n512_bf16_1_alg».proof.Proof.Regions
import proofs.«900705_g7700000000000706_dist_ar_v7x_xyz2x2x4_x_m1024_n512_bf16_1_alg».proof.Proof.OutCover

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

set_option maxHeartbeats 4000000 in
set_option maxRecDepth 8000 in
theorem seg3 (K : Dev nD × Fin 39 → ℕ) (c : Dev nD) (g : Buf (Elt F) (oM.view.loc (c : Thread nD τ))) (v2 v8 v10 v13 : BitVec 32) (Φ : sProp 𝕄) :
    iprop(St2 m K c g ∗ (St3 m K c g -∗ Φ)) ⊢
      wp frame (wpE (defs₀ (F := F)) 𝒱₀ c none) Set.univ (onWhole k0_part18 c v2 v8 v10 v13) (fun _ =>
      wp frame (wpE (defs₀ (F := F)) 𝒱₀ c none) Set.univ (onWhole k0_part19 c v2 v8 v10 v13) (fun x =>
      wp frame (wpE (defs₀ (F := F)) 𝒱₀ c none) Set.univ (onWhole k0_part20 c v2 v8 v10 v13 x.fst x.snd) (fun _ =>
      wp frame (wpE (defs₀ (F := F)) 𝒱₀ c none) Set.univ (onWhole k0_part21 c v2 v8 v10 v13) (fun _ =>
      Φ)))) := by
  unfold St2
  simp only [bigSepL_cons_cons, bigSepL_singleton, sep_notation, crD, at0, at1, xvP, argP, outP]
  iintro ⟨⟨#HR, #Hlev, ⟨%W, HO⟩, Hxv, Harg, Hout, Hcr18, ⟨A2, A3, A4, A5, A6, A7, A8, A9, A10, A11, A12, A24, A25, A26, A27, A28, A29, A30, B31, B32, B33, B34, B35, B36, B37⟩, ⟨C1, C13, C14, C15, C16, C17, C18, C19, C20, C21, C22, C23⟩, Hfin, ⟨R31, R32, R33, R34, R35, R36, R37⟩, Hxr⟩, Hk⟩
  simp only [onWhole, k0_part18_eq_skeleton]; unfold k0_part18_skel
  simp only [Prog.lift, Prog.bind_op, Prog.bind_ret, Prog.pure_eq_ret, semSignalWord, semWaitWord]
  have e31 : semAt cc0_scratch8 0 inb_S7_S1_0 = dI 31 := by decide
  simp only [e31]
  iapply (wait_dma m K c 31 (Ofin c) _ 4 (fun g u h => Ofin_pos h) (src := xr0) (dst := yr0) rfl) $$ HR Hlev R31 HO B31
  iintro ⟨HO, B31, Hp0⟩
  ihave Hp0 := (Entails.of_eq (show payD m c 31 = heldRead c yr0 fullShare (sx0 m (px (py c))) from rfl)) $$ Hp0
  unfold heldRead
  icases Hp0 with ⟨%f0, %hf0, Hy0⟩
  iapply (load_whole c xvM (View.set_whole _)) $$ Hxv; iintro Hxv
  iapply (wp_load 𝒱₀ (c : Thread nD τ) none Set.univ (m := yrM) (S := yr0.view.set) (View.set_slice _ _).symm.subset) $$ Hy0; iintro Hy0
  iapply (load_whole c oM (View.set_whole _)) $$ Hout; iintro Hout
  iapply (store_whole c oM (r := Rect.unit (s := S1024x512) (k0_off5 c 0#32) S64x512.size (k0_off5_inb c 0))) $$ Hout; iintro Hout
  rw [show yrM.view.readAt (Elt F) (Rect.unit (s := S416x512) ![0, 0] S64x512.size inb_S416x512_S64x512_0_0).toLoadRect f0 = sx0 m (px (py c)) from hf0]
  have e32 : semAt cc0_scratch8 1 inb_S7_S1_1 = dI 32 := by decide
  simp only [e32]
  iapply (wait_dma m K c 32 (Ofin c) _ 4 (fun g u h => Ofin_pos h) (src := xr1) (dst := yr1) rfl) $$ HR Hlev R32 HO B32
  iintro ⟨HO, B32, Hp1⟩
  ihave Hp1 := (Entails.of_eq (show payD m c 32 = heldRead c yr1 fullShare (sx1 m (px (py c))) from rfl)) $$ Hp1
  unfold heldRead
  icases Hp1 with ⟨%f1, %hf1, Hy1⟩
  iapply (load_whole c xvM (View.set_whole _)) $$ Hxv; iintro Hxv
  iapply (wp_load 𝒱₀ (c : Thread nD τ) none Set.univ (m := yrM) (S := yr1.view.set) (View.set_slice _ _).symm.subset) $$ Hy1; iintro Hy1
  iapply (load_whole c oM (View.set_whole _)) $$ Hout; iintro Hout
  iapply (store_whole c oM (r := Rect.unit (s := S1024x512) (k0_off5 c 64#32) S64x512.size (k0_off5_inb c 1))) $$ Hout; iintro Hout
  rw [show yrM.view.readAt (Elt F) (Rect.unit (s := S416x512) ![64, 0] S64x512.size inb_S416x512_S64x512_64_0).toLoadRect f1 = sx1 m (px (py c)) from hf1]
  rw [wp_ret]; imodintro
  simp only [onWhole, k0_part19_eq_skeleton]; unfold k0_part19_skel
  simp only [Prog.lift, Prog.bind_op, Prog.bind_ret, Prog.pure_eq_ret, semSignalWord, semWaitWord]
  have e33 : semAt cc0_scratch8 2 inb_S7_S1_2 = dI 33 := by decide
  simp only [e33]
  iapply (wait_dma m K c 33 (Ofin c) _ 4 (fun g u h => Ofin_pos h) (src := xr2) (dst := yr2) rfl) $$ HR Hlev R33 HO B33
  iintro ⟨HO, B33, Hp2⟩
  ihave Hp2 := (Entails.of_eq (show payD m c 33 = heldRead c yr2 fullShare (sx2 m (px (py c))) from rfl)) $$ Hp2
  unfold heldRead
  icases Hp2 with ⟨%f2, %hf2, Hy2⟩
  iapply (load_whole c xvM (View.set_whole _)) $$ Hxv; iintro Hxv
  iapply (wp_load 𝒱₀ (c : Thread nD τ) none Set.univ (m := yrM) (S := yr2.view.set) (View.set_slice _ _).symm.subset) $$ Hy2; iintro Hy2
  iapply (load_whole c oM (View.set_whole _)) $$ Hout; iintro Hout
  iapply (store_whole c oM (r := Rect.unit (s := S1024x512) (k0_off5 c 128#32) S64x512.size (k0_off5_inb c 2))) $$ Hout; iintro Hout
  rw [show yrM.view.readAt (Elt F) (Rect.unit (s := S416x512) ![128, 0] S64x512.size inb_S416x512_S64x512_128_0).toLoadRect f2 = sx2 m (px (py c)) from hf2]
  have e34 : semAt cc0_scratch8 3 inb_S7_S1_3 = dI 34 := by decide
  simp only [e34]
  iapply (wait_dma m K c 34 (Ofin c) _ 4 (fun g u h => Ofin_pos h) (src := xr3) (dst := yr3) rfl) $$ HR Hlev R34 HO B34
  iintro ⟨HO, B34, Hp3⟩
  ihave Hp3 := (Entails.of_eq (show payD m c 34 = heldRead c yr3 fullShare (sx3 m (px (py c))) from rfl)) $$ Hp3
  unfold heldRead
  icases Hp3 with ⟨%f3, %hf3, Hy3⟩
  iapply (load_whole c xvM (View.set_whole _)) $$ Hxv; iintro Hxv
  rw [wp_ret]; imodintro
  simp only [onWhole, k0_part20_eq_skeleton]; unfold k0_part20_skel
  simp only [Prog.lift, Prog.bind_op, Prog.bind_ret, Prog.pure_eq_ret, semSignalWord, semWaitWord]
  iapply (wp_load 𝒱₀ (c : Thread nD τ) none Set.univ (m := yrM) (S := yr3.view.set) (View.set_slice _ _).symm.subset) $$ Hy3; iintro Hy3
  iapply (load_whole c oM (View.set_whole _)) $$ Hout; iintro Hout
  iapply (store_whole c oM (r := Rect.unit (s := S1024x512) (k0_off5 c 192#32) S64x512.size (k0_off5_inb c 3))) $$ Hout; iintro Hout
  rw [show yrM.view.readAt (Elt F) (Rect.unit (s := S416x512) ![192, 0] S64x512.size inb_S416x512_S64x512_192_0).toLoadRect f3 = sx3 m (px (py c)) from hf3]
  have e35 : semAt cc0_scratch8 4 inb_S7_S1_4 = dI 35 := by decide
  simp only [e35]
  iapply (wait_dma m K c 35 (Ofin c) _ 4 (fun g u h => Ofin_pos h) (src := xr4) (dst := yr4) rfl) $$ HR Hlev R35 HO B35
  iintro ⟨HO, B35, Hp4⟩
  ihave Hp4 := (Entails.of_eq (show payD m c 35 = heldRead c yr4 fullShare (sx4 m (px (py c))) from rfl)) $$ Hp4
  unfold heldRead
  icases Hp4 with ⟨%f4, %hf4, Hy4⟩
  iapply (load_whole c xvM (View.set_whole _)) $$ Hxv; iintro Hxv
  iapply (wp_load 𝒱₀ (c : Thread nD τ) none Set.univ (m := yrM) (S := yr4.view.set) (View.set_slice _ _).symm.subset) $$ Hy4; iintro Hy4
  iapply (load_whole c oM (View.set_whole _)) $$ Hout; iintro Hout
  iapply (store_whole c oM (r := Rect.unit (s := S1024x512) (k0_off5 c 256#32) S64x512.size (k0_off5_inb c 4))) $$ Hout; iintro Hout
  rw [show yrM.view.readAt (Elt F) (Rect.unit (s := S416x512) ![256, 0] S64x512.size inb_S416x512_S64x512_256_0).toLoadRect f4 = sx4 m (px (py c)) from hf4]
  rw [wp_ret]; imodintro
  simp only [onWhole, k0_part21_eq_skeleton]; unfold k0_part21_skel
  simp only [Prog.lift, Prog.bind_op, Prog.bind_ret, Prog.pure_eq_ret, semSignalWord, semWaitWord]
  have e36 : semAt cc0_scratch8 5 inb_S7_S1_5 = dI 36 := by decide
  simp only [e36]
  iapply (wait_dma m K c 36 (Ofin c) _ 4 (fun g u h => Ofin_pos h) (src := xr5) (dst := yr5) rfl) $$ HR Hlev R36 HO B36
  iintro ⟨HO, B36, Hp5⟩
  ihave Hp5 := (Entails.of_eq (show payD m c 36 = heldRead c yr5 fullShare (sx5 m (px (py c))) from rfl)) $$ Hp5
  unfold heldRead
  icases Hp5 with ⟨%f5, %hf5, Hy5⟩
  iapply (load_whole c xvM (View.set_whole _)) $$ Hxv; iintro Hxv
  iapply (wp_load 𝒱₀ (c : Thread nD τ) none Set.univ (m := yrM) (S := yr5.view.set) (View.set_slice _ _).symm.subset) $$ Hy5; iintro Hy5
  iapply (load_whole c oM (View.set_whole _)) $$ Hout; iintro Hout
  iapply (store_whole c oM (r := Rect.unit (s := S1024x512) (k0_off5 c 320#32) S64x512.size (k0_off5_inb c 5))) $$ Hout; iintro Hout
  rw [show yrM.view.readAt (Elt F) (Rect.unit (s := S416x512) ![320, 0] S64x512.size inb_S416x512_S64x512_320_0).toLoadRect f5 = sx5 m (px (py c)) from hf5]
  have e37 : semAt cc0_scratch8 6 inb_S7_S1_6 = dI 37 := by decide
  simp only [e37]
  iapply (wait_dma m K c 37 (Ofin c) _ 4 (fun g u h => Ofin_pos h) (src := xr6) (dst := yr6) rfl) $$ HR Hlev R37 HO B37
  iintro ⟨HO, B37, Hp6⟩
  ihave Hp6 := (Entails.of_eq (show payD m c 37 = heldRead c yr6 fullShare (sx6 m (px (py c))) from rfl)) $$ Hp6
  unfold heldRead
  icases Hp6 with ⟨%f6, %hf6, Hy6⟩
  iapply (load_whole c xvM (View.set_whole _)) $$ Hxv; iintro Hxv
  iapply (wp_load 𝒱₀ (c : Thread nD τ) none Set.univ (m := yrM) (S := yr6.view.set) (View.set_slice _ _).symm.subset) $$ Hy6; iintro Hy6
  iapply (load_whole c oM (View.set_whole _)) $$ Hout; iintro Hout
  iapply (store_whole c oM (r := Rect.unit (s := S1024x512) (k0_off6 c) S32x512.size (k0_off6_inb c))) $$ Hout; iintro Hout
  rw [show yrM.view.readAt (Elt F) (Rect.unit (s := S416x512) ![384, 0] S32x512.size inb_S416x512_S32x512_384_0).toLoadRect f6 = sx6 m (px (py c)) from hf6]
  rw [wp_ret]; imodintro
  iapply Hk
  unfold St3 yrLanded heldRead
  simp only [bigSepL_cons_cons, bigSepL_singleton, sep_notation, crD, at0, at1, xvP, argP, outP]
  isplitl []
  · iexact HR
  isplitl []
  · iexact Hlev
  isplitl [HO]
  · iexists _; iexact HO
  isplitl [Hxv]
  · iexact Hxv
  isplitl [Harg]
  · iexact Harg
  isplitl [Hout]
  · iexact Hout
  isplitl [Hcr18]
  · iexact Hcr18
  isplitl [A2 A3 A4 A5 A6 A7 A8 A9 A10 A11 A12 A24 A25 A26 A27 A28 A29 A30]
  · iframe
  isplitl [C1 C13 C14 C15 C16 C17 C18 C19 C20 C21 C22 C23 B31 B32 B33 B34 B35 B36 B37]
  · iframe
  isplitl [Hfin]
  · iexact Hfin
  isplitl [Hxr]
  · iexact Hxr
  isplitl [Hy0]
  · iexists f0; isplitr
    · ipureintro; exact hf0
    · iexact Hy0
  isplitl [Hy1]
  · iexists f1; isplitr
    · ipureintro; exact hf1
    · iexact Hy1
  isplitl [Hy2]
  · iexists f2; isplitr
    · ipureintro; exact hf2
    · iexact Hy2
  isplitl [Hy3]
  · iexists f3; isplitr
    · ipureintro; exact hf3
    · iexact Hy3
  isplitl [Hy4]
  · iexists f4; isplitr
    · ipureintro; exact hf4
    · iexact Hy4
  isplitl [Hy5]
  · iexists f5; isplitr
    · ipureintro; exact hf5
    · iexact Hy5
  · iexists f6; isplitr
    · ipureintro; exact hf6
    · iexact Hy6

/-- info: 'Cert.KernelIdeal.AR.seg3' depends on axioms: [propext, Classical.choice, Quot.sound] -/
#guard_msgs in #print axioms seg3

end Cert.KernelIdeal.AR

end
-- ==== Proof.Seg4.lean ====
import proofs.«900705_g7700000000000706_dist_ar_v7x_xyz2x2x4_x_m1024_n512_bf16_1_alg».proof.Proof.States
import proofs.«900705_g7700000000000706_dist_ar_v7x_xyz2x2x4_x_m1024_n512_bf16_1_alg».proof.Proof.Regions
import proofs.«900705_g7700000000000706_dist_ar_v7x_xyz2x2x4_x_m1024_n512_bf16_1_alg».proof.Proof.OutCover

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

private theorem dev21_eq (c : Dev nD) : (⟨k0_dev21 c, k0_dev21_lt c⟩ : Dev nD) = px c := Fin.ext (k0_dev21_eq c)
private theorem dev22_eq (c : Dev nD) : (⟨k0_dev22 c, k0_dev22_lt c⟩ : Dev nD) = py c := Fin.ext (k0_dev22_eq c)

private theorem ret_then {α : Type} (c : Dev nD) (p : Prog (TpuEff nD τ sig (Elt F) Λ₀ .tc) α) (Q : α → sProp 𝕄) :
    wp frame (wpE (defs₀ (F := F)) 𝒱₀ c none) Set.univ (Prog.ret PUnit.unit) (fun _ => wp frame (wpE (defs₀ (F := F)) 𝒱₀ c none) Set.univ p Q)
      = wp frame (wpE (defs₀ (F := F)) 𝒱₀ c none) Set.univ p Q :=
  fupd_wp_eq _ _ _ p Q

theorem seg4 (K : Dev nD × Fin 39 → ℕ) (c : Dev nD) (g : Buf (Elt F) (oM.view.loc (c : Thread nD τ))) (v2 v5 v8 v9 v10 : BitVec 32) (Kt : PUnit → sProp 𝕄) :
    iprop(St3 m K c g ∗ (St4 m K c g -∗ wp frame (wpE (defs₀ (F := F)) 𝒱₀ c none) Set.univ (Prog.ret PUnit.unit) Kt)) ⊢
      wp frame (wpE (defs₀ (F := F)) 𝒱₀ c none) Set.univ (onWhole k0_part22) (fun _ =>
      wp frame (wpE (defs₀ (F := F)) 𝒱₀ c none) Set.univ (onWhole k0_part23) (fun _ =>
      wp frame (wpE (defs₀ (F := F)) 𝒱₀ c none) Set.univ (onWhole k0_part24) (fun _ =>
      wp frame (wpE (defs₀ (F := F)) 𝒱₀ c none) Set.univ (onWhole k0_part25 c v2 v5 v8 v9 v10) (fun _ =>
      wp frame (wpE (defs₀ (F := F)) 𝒱₀ c none) Set.univ (Prog.op (TpuEff.semWait (SemArray.sem cc0_scoped0) (2#32).toNat) fun _ => Prog.ret PUnit.unit) Kt)))) := by
  simp only [onWhole, k0_part22_eq_skeleton, k0_part23_eq_skeleton, k0_part24_eq_skeleton, k0_part25_eq_skeleton]
  unfold k0_part22_skel k0_part23_skel k0_part24_skel k0_part25_skel
  simp only [Prog.lift, Prog.bind_op, Prog.bind_ret, Prog.pure_eq_ret, semSignalWord, semWaitWord]
  unfold St3 finP
  simp only [bigSepL_cons_cons, bigSepL_singleton, sep_notation, crD, at0, at1]
  iintro ⟨⟨#HR, #Hlev, ⟨%W, HO⟩, Hxv, Harg, Hout, ⟨Hc2, Hc3, Hc4, Hc5, Hc6, Hc7, Hc8, Hc9, Hc10, Hc11, Hc12, Hc24, Hc25, Hc26, Hc27, Hc28, Hc29, Hc30⟩, ⟨Ha2, Ha3, Ha4, Ha5, Ha6, Ha7, Ha8, Ha9, Ha10, Ha11, Ha12, Ha24, Ha25, Ha26, Ha27, Ha28, Ha29, Ha30⟩, ⟨Hb1, Hb13, Hb14, Hb15, Hb16, Hb17, Hb18, Hb19, Hb20, Hb21, Hb22, Hb23, Hb31, Hb32, Hb33, Hb34, Hb35, Hb36, Hb37⟩, ⟨Haf, Hcf, Htfx, Htfy⟩, Hxr, Hyr⟩, Hk⟩
  iapply (wait_dma m K c 2 (Ofin c) _ 4 (fun g u h => Ofin_pos h) (dst := xs0) rfl) $$ HR Hlev Hc2 HO Ha2
  iintro ⟨HO, Hb2, Hp2⟩
  iapply (wait_dma m K c 3 (Ofin c) _ 4 (fun g u h => Ofin_pos h) (dst := xs1) rfl) $$ HR Hlev Hc3 HO Ha3
  iintro ⟨HO, Hb3, Hp3⟩
  iapply (wait_dma m K c 4 (Ofin c) _ 4 (fun g u h => Ofin_pos h) (dst := xs2) rfl) $$ HR Hlev Hc4 HO Ha4
  iintro ⟨HO, Hb4, Hp4⟩
  iapply (wait_dma m K c 5 (Ofin c) _ 4 (fun g u h => Ofin_pos h) (dst := xs3) rfl) $$ HR Hlev Hc5 HO Ha5
  iintro ⟨HO, Hb5, Hp5⟩
  iapply (wait_dma m K c 6 (Ofin c) _ 4 (fun g u h => Ofin_pos h) (dst := xs4) rfl) $$ HR Hlev Hc6 HO Ha6
  iintro ⟨HO, Hb6, Hp6⟩
  rw [ret_then]
  iapply (wait_dma m K c 7 (Ofin c) _ 4 (fun g u h => Ofin_pos h) (dst := xs5) rfl) $$ HR Hlev Hc7 HO Ha7
  iintro ⟨HO, Hb7, Hp7⟩
  iapply (wait_dma m K c 8 (Ofin c) _ 4 (fun g u h => Ofin_pos h) (dst := xs6) rfl) $$ HR Hlev Hc8 HO Ha8
  iintro ⟨HO, Hb8, Hp8⟩
  iapply (wait_dma m K c 9 (Ofin c) _ 4 (fun g u h => Ofin_pos h) (dst := xs7) rfl) $$ HR Hlev Hc9 HO Ha9
  iintro ⟨HO, Hb9, Hp9⟩
  iapply (wait_dma m K c 10 (Ofin c) _ 4 (fun g u h => Ofin_pos h) (dst := xs8) rfl) $$ HR Hlev Hc10 HO Ha10
  iintro ⟨HO, Hb10, Hp10⟩
  iapply (wait_dma m K c 11 (Ofin c) _ 4 (fun g u h => Ofin_pos h) (dst := xs9) rfl) $$ HR Hlev Hc11 HO Ha11
  iintro ⟨HO, Hb11, Hp11⟩
  rw [ret_then]
  iapply (wait_dma m K c 12 (Ofin c) _ 4 (fun g u h => Ofin_pos h) (dst := xs10) rfl) $$ HR Hlev Hc12 HO Ha12
  iintro ⟨HO, Hb12, Hp12⟩
  iapply (wait_dma m K c 24 (Ofin c) _ 4 (fun g u h => Ofin_pos h) (dst := xr0) rfl) $$ HR Hlev Hc24 HO Ha24
  iintro ⟨HO, Hb24, Hp24⟩
  iapply (wait_dma m K c 25 (Ofin c) _ 4 (fun g u h => Ofin_pos h) (dst := xr1) rfl) $$ HR Hlev Hc25 HO Ha25
  iintro ⟨HO, Hb25, Hp25⟩
  iapply (wait_dma m K c 26 (Ofin c) _ 4 (fun g u h => Ofin_pos h) (dst := xr2) rfl) $$ HR Hlev Hc26 HO Ha26
  iintro ⟨HO, Hb26, Hp26⟩
  iapply (wait_dma m K c 27 (Ofin c) _ 4 (fun g u h => Ofin_pos h) (dst := xr3) rfl) $$ HR Hlev Hc27 HO Ha27
  iintro ⟨HO, Hb27, Hp27⟩
  rw [ret_then]
  iapply (wait_dma m K c 28 (Ofin c) _ 4 (fun g u h => Ofin_pos h) (dst := xr4) rfl) $$ HR Hlev Hc28 HO Ha28
  iintro ⟨HO, Hb28, Hp28⟩
  iapply (wait_dma m K c 29 (Ofin c) _ 4 (fun g u h => Ofin_pos h) (dst := xr5) rfl) $$ HR Hlev Hc29 HO Ha29
  iintro ⟨HO, Hb29, Hp29⟩
  iapply (wait_dma m K c 30 (Ofin c) _ 4 (fun g u h => Ofin_pos h) (dst := xr6) rfl) $$ HR Hlev Hc30 HO Ha30
  iintro ⟨HO, Hb30, Hp30⟩
  simp only [dev21_eq c, dev22_eq c]
  iapply (step_signal m c (px c) finS false (K (px c, 1)) (Ofin c) (tallyAt (finC (py c)) () 1) rfl _ (routes_all c (px c))) $$ [HO Htfx]
  · isplitr; · iapply (inv_at m K (px c, 1)); iexact HR
    iframe HO Htfx
    isplitr; · rw [payload_fin]; iempintro
    iapply (reached_at m K (px c, 1)); iexact HR
  iintro HO
  iapply (step_signal m c (py c) finS true (K (py c, 1)) (tallyAt (finC (py c)) () 1) 0 (by rw [zero_add]) _ (routes_all c (py c))) $$ [HO Htfy]
  · isplitr; · iapply (inv_at m K (py c, 1)); iexact HR
    iframe HO Htfy
    isplitr; · rw [payload_fin]; iempintro
    iapply (reached_at m K (py c, 1)); iexact HR
  iintro HO
  rw [ret_then]
  iapply (step_wait_reg m c finS (K (c, 1)) 0 _) $$ [Hcf HO Haf]
  · isplitr; · iapply (inv_at m K (c, 1)); iexact HR
    iframe Hcf HO
    isplitr; · rw [MayWait_zero]; iempintro
    iexact Haf
  iintro ⟨HO, Hbf, -, -⟩
  iapply Hk
  unfold St4
  simp only [bigSepL_cons_cons, bigSepL_singleton, sep_notation, at1]
  isplitr; · iexact HR
  isplitl [HO]; · iexists _; iexact HO
  iframe Hxv Harg Hout Hbf
  isplitl [Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27 Hb28 Hb29 Hb30 Hb31 Hb32 Hb33 Hb34 Hb35 Hb36 Hb37]
  · isplitl [Hb1]; · iexact Hb1
    iframe Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27 Hb28 Hb29 Hb30 Hb31 Hb32 Hb33 Hb34 Hb35 Hb36
    iexact Hb37
  iframe Hxr Hyr
  isplitl [Hp2 Hp3 Hp4 Hp5 Hp6 Hp7 Hp8 Hp9 Hp10 Hp11 Hp12]
  · isplitl [Hp2]; · iexact Hp2
    iframe Hp3 Hp4 Hp5 Hp6 Hp7 Hp8 Hp9 Hp10 Hp11
    iexact Hp12
  iframe Hp24 Hp25 Hp26 Hp27 Hp28 Hp29
  iexact Hp30

private theorem unhalve_read {sp : Space} {s : Shape} {e : EltTy} (o : Dev nD) (M : Memref sig .tc sp s e) (v : s.Idx → Elt F e) :
    iprop(heldAny (F := F) o M fullShare.left ∗ heldRead (F := F) o M fullShare.right v) ⊢ heldAny (F := F) o M fullShare := by
  unfold heldRead
  iintro ⟨Hl, ⟨%f, -, Hr⟩⟩
  iapply (held_unhalve o M f)
  isplitl [Hl]
  · iexact Hl
  · iexact Hr

theorem close_own (K : Dev nD × Fin 39 → ℕ) (c : Dev nD) : ∀ l : List (Fin 38),
    iprop(records m K ∗ bigSepL l (fun k => atPos ER ((c : Thread nD τ), osem k) (0 + 1) ∅ 0))
      ⊢ (iprop(|={Set.univ}=> bigSepL l (fun k => semVal ((c : Thread nD τ), osem k) 0)) : sProp 𝕄)
  | [] => by
    rw [bigSepL_nil, bigSepL_nil]
    iintro -
    imodintro
    iempintro
  | k :: l => by
    have hk : k.val + 1 < 39 := by omega
    rw [bigSepL_cons, bigSepL_cons]
    simp only [sep_notation]
    iintro ⟨#HR, Ha, Hl⟩
    imod (step_close m c (osem k) (K (c, ⟨k.val + 1, hk⟩))) $$ [Ha] with Hz
    · isplitr; · iapply (inv_at m K (c, ⟨k.val + 1, hk⟩)); iexact HR
      iexact Ha
    imod (close_own K c l) $$ [Hl] with Hzl
    · isplitr; · iexact HR
      iexact Hl
    imodintro
    isplitl [Hz]; · iexact Hz
    iexact Hzl

private theorem own_list : (Finset.univ : Finset (Fin 38)) = ([0, 1, 2, 3, 4, 5, 6, 7, 8, 9, 10, 11, 12, 13, 14, 15, 16, 17, 18, 19, 20, 21, 22, 23, 24, 25, 26, 27, 28, 29, 30, 31, 32, 33, 34, 35, 36, 37] : List (Fin 38)).toFinset := by decide
private theorem own_nodup : ([0, 1, 2, 3, 4, 5, 6, 7, 8, 9, 10, 11, 12, 13, 14, 15, 16, 17, 18, 19, 20, 21, 22, 23, 24, 25, 26, 27, 28, 29, 30, 31, 32, 33, 34, 35, 36, 37] : List (Fin 38)).Nodup := by decide

theorem finish (K : Dev nD × Fin 39 → ℕ) (c : Dev nD) (g : Buf (Elt F) (oM.view.loc (c : Thread nD τ))) :
    St4 m K c g ⊢ (iprop(|={Set.univ}=> (Φ₁ m c ∗ (∃ W, owes (c : Thread nD τ) 0 W) ∗ stg c cc0_stg0_0 (outC m c junk))) : sProp 𝕄) := by
  unfold St4 Φ₁ xrLanded yrLanded xvP argP outP
  rw [scopedRest0_eq, Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37] own_list own_nodup]
  simp only [bigSepL_cons_cons, bigSepL_singleton, sep_notation, at1]
  iintro ⟨#HR, HO, Hxv, Harg, Hout, Hbf, ⟨Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27, Hb28, Hb29, Hb30, Hb31, Hb32, Hb33, Hb34, Hb35, Hb36, Hb37⟩, ⟨Hr0, Hr1, Hr2, Hr3, Hr4, Hr5, Hr6, Hr7, Hr8, Hr9, Hr10⟩, ⟨Hy0, Hy1, Hy2, Hy3, Hy4, Hy5, Hy6⟩, ⟨Hp2, Hp3, Hp4, Hp5, Hp6, Hp7, Hp8, Hp9, Hp10, Hp11, Hp12⟩, Hp24, Hp25, Hp26, Hp27, Hp28, Hp29, Hp30⟩
  ihave Hp2 := (Entails.of_eq (show payD m c 2 = heldAny c xs0 fullShare from rfl)) $$ Hp2
  ihave Hp3 := (Entails.of_eq (show payD m c 3 = heldAny c xs1 fullShare from rfl)) $$ Hp3
  ihave Hp4 := (Entails.of_eq (show payD m c 4 = heldAny c xs2 fullShare from rfl)) $$ Hp4
  ihave Hp5 := (Entails.of_eq (show payD m c 5 = heldAny c xs3 fullShare from rfl)) $$ Hp5
  ihave Hp6 := (Entails.of_eq (show payD m c 6 = heldAny c xs4 fullShare from rfl)) $$ Hp6
  ihave Hp7 := (Entails.of_eq (show payD m c 7 = heldAny c xs5 fullShare from rfl)) $$ Hp7
  ihave Hp8 := (Entails.of_eq (show payD m c 8 = heldAny c xs6 fullShare from rfl)) $$ Hp8
  ihave Hp9 := (Entails.of_eq (show payD m c 9 = heldAny c xs7 fullShare from rfl)) $$ Hp9
  ihave Hp10 := (Entails.of_eq (show payD m c 10 = heldAny c xs8 fullShare from rfl)) $$ Hp10
  ihave Hp11 := (Entails.of_eq (show payD m c 11 = heldAny c xs9 fullShare from rfl)) $$ Hp11
  ihave Hp12 := (Entails.of_eq (show payD m c 12 = heldAny c xs10 fullShare from rfl)) $$ Hp12
  ihave Hp24 := (Entails.of_eq (show payD m c 24 = heldAny c xr0 fullShare.left from rfl)) $$ Hp24
  ihave Hp25 := (Entails.of_eq (show payD m c 25 = heldAny c xr1 fullShare.left from rfl)) $$ Hp25
  ihave Hp26 := (Entails.of_eq (show payD m c 26 = heldAny c xr2 fullShare.left from rfl)) $$ Hp26
  ihave Hp27 := (Entails.of_eq (show payD m c 27 = heldAny c xr3 fullShare.left from rfl)) $$ Hp27
  ihave Hp28 := (Entails.of_eq (show payD m c 28 = heldAny c xr4 fullShare.left from rfl)) $$ Hp28
  ihave Hp29 := (Entails.of_eq (show payD m c 29 = heldAny c xr5 fullShare.left from rfl)) $$ Hp29
  ihave Hp30 := (Entails.of_eq (show payD m c 30 = heldAny c xr6 fullShare.left from rfl)) $$ Hp30
  imod (close_own m K c [0, 1, 2, 3, 4, 5, 6, 7, 8, 9, 10, 11, 12, 13, 14, 15, 16, 17, 18, 19, 20, 21, 22, 23, 24, 25, 26, 27, 28, 29, 30, 31, 32, 33, 34, 35, 36, 37]) $$ [Hbf Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27 Hb28 Hb29 Hb30 Hb31 Hb32 Hb33 Hb34 Hb35 Hb36 Hb37] with Hz
  · isplitr; · iexact HR
    simp only [bigSepL_cons_cons, bigSepL_singleton, sep_notation]
    isplitl [Hbf]; · iexact Hbf
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hb10]; · iexact Hb10
    isplitl [Hb11]; · iexact Hb11
    isplitl [Hb12]; · iexact Hb12
    isplitl [Hb13]; · iexact Hb13
    isplitl [Hb14]; · iexact Hb14
    isplitl [Hb15]; · iexact Hb15
    isplitl [Hb16]; · iexact Hb16
    isplitl [Hb17]; · iexact Hb17
    isplitl [Hb18]; · iexact Hb18
    isplitl [Hb19]; · iexact Hb19
    isplitl [Hb20]; · iexact Hb20
    isplitl [Hb21]; · iexact Hb21
    isplitl [Hb22]; · iexact Hb22
    isplitl [Hb23]; · iexact Hb23
    isplitl [Hb24]; · iexact Hb24
    isplitl [Hb25]; · iexact Hb25
    isplitl [Hb26]; · iexact Hb26
    isplitl [Hb27]; · iexact Hb27
    isplitl [Hb28]; · iexact Hb28
    isplitl [Hb29]; · iexact Hb29
    isplitl [Hb30]; · iexact Hb30
    isplitl [Hb31]; · iexact Hb31
    isplitl [Hb32]; · iexact Hb32
    isplitl [Hb33]; · iexact Hb33
    isplitl [Hb34]; · iexact Hb34
    isplitl [Hb35]; · iexact Hb35
    isplitl [Hb36]; · iexact Hb36
    iexact Hb37
  simp only [bigSepL_cons_cons, bigSepL_singleton, sep_notation]
  imodintro
  isplitl [Harg Hz Hxv Hp2 Hp3 Hp4 Hp5 Hp6 Hp7 Hp8 Hp9 Hp10 Hp11 Hp12 Hr0 Hr1 Hr2 Hr3 Hr4 Hr5 Hr6 Hr7 Hr8 Hr9 Hr10 Hp24 Hp25 Hp26 Hp27 Hp28 Hp29 Hp30 Hy0 Hy1 Hy2 Hy3 Hy4 Hy5 Hy6]
  ·
    isplitl [Harg]
    · ihave Harg := (Entails.of_eq (whole_pts c main_arg0 (Xa m c))) $$ Harg
      iexact Harg
    isplitl [Hz]; · iexact Hz
    isplitl [Hxv]
    · iexists (Xv m c)
      ihave Hxv := (Entails.of_eq (whole_pts c cc0_scratch0 (Xv m c))) $$ Hxv
      iexact Hxv
    isplitl [Hp2 Hp3 Hp4 Hp5 Hp6 Hp7 Hp8 Hp9 Hp10 Hp11 Hp12]
    · iapply (xs_join c)
      iframe Hp2 Hp3 Hp4 Hp5 Hp6 Hp7 Hp8 Hp9 Hp10 Hp11
      iexact Hp12
    isplitl [Hr0 Hr1 Hr2 Hr3 Hr4 Hr5 Hr6 Hr7 Hr8 Hr9 Hr10 Hp24 Hp25 Hp26 Hp27 Hp28 Hp29 Hp30]
    · iapply (xr_join c)
      unfold xrAll
      isplitl [Hp24 Hr0]
      · iapply (unhalve_read c xr0 _); isplitl [Hp24]; · iexact Hp24
        iexact Hr0
      isplitl [Hp25 Hr1]
      · iapply (unhalve_read c xr1 _); isplitl [Hp25]; · iexact Hp25
        iexact Hr1
      isplitl [Hp26 Hr2]
      · iapply (unhalve_read c xr2 _); isplitl [Hp26]; · iexact Hp26
        iexact Hr2
      isplitl [Hp27 Hr3]
      · iapply (unhalve_read c xr3 _); isplitl [Hp27]; · iexact Hp27
        iexact Hr3
      isplitl [Hp28 Hr4]
      · iapply (unhalve_read c xr4 _); isplitl [Hp28]; · iexact Hp28
        iexact Hr4
      isplitl [Hp29 Hr5]
      · iapply (unhalve_read c xr5 _); isplitl [Hp29]; · iexact Hp29
        iexact Hr5
      isplitl [Hp30 Hr6]
      · iapply (unhalve_read c xr6 _); isplitl [Hp30]; · iexact Hp30
        iexact Hr6
      isplitl [Hr7]; · iapply (heldRead_any c xr7 fullShare _); iexact Hr7
      isplitl [Hr8]; · iapply (heldRead_any c xr8 fullShare _); iexact Hr8
      isplitl [Hr9]; · iapply (heldRead_any c xr9 fullShare _); iexact Hr9
      iapply (heldRead_any c xr10 fullShare _); iexact Hr10
    iapply (yr_join c)
    unfold yrAll
    isplitl [Hy0]; · iapply (heldRead_any c yr0 fullShare _); iexact Hy0
    isplitl [Hy1]; · iapply (heldRead_any c yr1 fullShare _); iexact Hy1
    isplitl [Hy2]; · iapply (heldRead_any c yr2 fullShare _); iexact Hy2
    isplitl [Hy3]; · iapply (heldRead_any c yr3 fullShare _); iexact Hy3
    isplitl [Hy4]; · iapply (heldRead_any c yr4 fullShare _); iexact Hy4
    isplitl [Hy5]; · iapply (heldRead_any c yr5 fullShare _); iexact Hy5
    iapply (heldRead_any c yr6 fullShare _); iexact Hy6
  isplitl [HO]; · iexact HO
  iexists (outC m c g)
  isplitr; · ipureintro; exact outC_indep m c g junk
  ihave Hout := (Entails.of_eq (whole_pts c cc0_stg0_0 (outC m c g))) $$ Hout
  iexact Hout

/-- info: 'Cert.KernelIdeal.AR.seg4' depends on axioms: [propext, Classical.choice, Quot.sound] -/
#guard_msgs in #print axioms seg4

/-- info: 'Cert.KernelIdeal.AR.close_own' depends on axioms: [propext, Classical.choice, Quot.sound] -/
#guard_msgs in #print axioms close_own

/-- info: 'Cert.KernelIdeal.AR.finish' depends on axioms: [propext, Classical.choice, Quot.sound] -/
#guard_msgs in #print axioms finish

end Cert.KernelIdeal.AR

end
-- ==== Proof.Body.lean ====
import proofs.«900705_g7700000000000706_dist_ar_v7x_xyz2x2x4_x_m1024_n512_bf16_1_alg».proof.Proof.States0
import proofs.«900705_g7700000000000706_dist_ar_v7x_xyz2x2x4_x_m1024_n512_bf16_1_alg».proof.Proof.Seg1b
import proofs.«900705_g7700000000000706_dist_ar_v7x_xyz2x2x4_x_m1024_n512_bf16_1_alg».proof.Proof.Seg2a
import proofs.«900705_g7700000000000706_dist_ar_v7x_xyz2x2x4_x_m1024_n512_bf16_1_alg».proof.Proof.Seg2bAlt
import proofs.«900705_g7700000000000706_dist_ar_v7x_xyz2x2x4_x_m1024_n512_bf16_1_alg».proof.Proof.Seg3
import proofs.«900705_g7700000000000706_dist_ar_v7x_xyz2x2x4_x_m1024_n512_bf16_1_alg».proof.Proof.Seg4
import proofs.«900705_g7700000000000706_dist_ar_v7x_xyz2x2x4_x_m1024_n512_bf16_1_alg».proof.Proof.Regions
import proofs.«900705_g7700000000000706_dist_ar_v7x_xyz2x2x4_x_m1024_n512_bf16_1_alg».proof.Proof.OutCover

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

private theorem dev1_eq (c : Dev nD) : (⟨k0_dev1 c, k0_dev1_lt c⟩ : Dev nD) = px c := Fin.ext (k0_dev1_eq c)
private theorem dev2_eq (c : Dev nD) : (⟨k0_dev2 c, k0_dev2_lt c⟩ : Dev nD) = py c := Fin.ext (k0_dev2_eq c)

private abbrev bodyProg : Prog (TpuEff nD τ sig (Elt F) Λ₀ .tc) PUnit :=
  cc0_body (Memref.whole main_arg0) (Memref.isWhole_whole _) (Memref.whole cc0_stg0_0) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scoped0

theorem sound_body (c : Dev nD) (Kt : PUnit → sProp 𝕄) :
    iprop(bodyPre' m ρ c ∗ (bodyPost m ρ c -∗ Kt ⟨⟩))
      ⊢ wp frame (wpE (defs₀ (F := F)) 𝒱₀ c none) Set.univ (bodyProg (F := F)) Kt := by
  unfold bodyProg
  simp only [cc0_body_eq_skeleton]; unfold cc0_body_skel
  simp only [onWhole, k0_part1_eq_skeleton]; unfold k0_part1_skel
  simp only [semSignalWord, semWaitWord, Prog.lift, Prog.bind_op, Prog.bind_ret, Prog.pure_eq_ret, wp_deviceId]
  unfold bodyPre' Φ₀ start ghost atAll payToks creds
  rw [scopedRest0_eq]
  simp only [dmaIdx, ownIdx, xrIdx, yrIdx, bigSepL_cons_cons, bigSepL_singleton, sep_notation]
  iintro ⟨⟨⟨⟨⟨%K, #HR, ⟨Hab, Haf, Ha1, Ha2, Ha3, Ha4, Ha5, Ha6, Ha7, Ha8, Ha9, Ha10, Ha11, Ha12, Ha13, Ha14, Ha15, Ha16, Ha17, Ha18, Ha19, Ha20, Ha21, Ha22, Ha23, Ha24, Ha25, Ha26, Ha27, Ha28, Ha29, Ha30, Ha31, Ha32, Ha33, Ha34, Ha35, Ha36, Ha37⟩, ⟨Htbx, Htby, Htfx, Htfy, ⟨Ht1, Ht2, Ht3, Ht4, Ht5, Ht6, Ht7, Ht8, Ht9, Ht10, Ht11, Ht12, Ht24, Ht25, Ht26, Ht27, Ht28, Ht29, Ht30⟩, ⟨Htx13, Htx14, Htx15, Htx16, Htx17, Htx18, Htx19, Htx20, Htx21, Htx22, Htx23⟩, Hty31, Hty32, Hty33, Hty34, Hty35, Hty36, Hty37⟩⟩, ⟨Hcb, Hcf, ⟨Hc13, Hc14, Hc15, Hc16, Hc17, Hc18, Hc19, Hc20, Hc21, Hc22, Hc23⟩, Hc31, Hc32, Hc33, Hc34, Hc35, Hc36, Hc37⟩, #Hlev⟩, Harg, ⟨%fv, Hxv⟩, ⟨%fs, Hxs⟩, ⟨%fr, Hxr⟩, ⟨%fy, Hyr⟩⟩, Ho, ⟨%d0, %g0, %hg0, Hout⟩⟩, Hk⟩
  unfold Dat.owesAt Pipeline.owesWithin
  icases Ho with ⟨%W, %hW, HO⟩
  rw [show (dats m ρ 0 c).owed t₀.castSucc = O₀ c from rfl]
  simp only [dev1_eq c, dev2_eq c]

  ihave Harg := (Entails.of_eq (whole_pts c main_arg0 _).symm) $$ Harg
  ihave Hxv := (Entails.of_eq (whole_pts c cc0_scratch0 fv).symm) $$ Hxv
  iapply (step_copy m c (K (c, 2)) fv) $$ [Harg Hxv Ht1]
  · isplitr; · iapply (inv_at m K (c, 2)); iexact HR
    isplitl [Harg]; · iexact Harg
    isplitl [Hxv]; · iexact Hxv
    isplitl [Ht1]; · iexact Ht1
    iapply (reached_at m K (c, 2)); iexact HR
  iintro Hc1
  ihave Hxrs := (xr_split (F := F) c) $$ [Hxr]
  · iexists fr; iexact Hxr
  iapply (step_signal m c (px c) barS false (K (px c, 0)) (O₀ c) (O₁ c) rfl W (routes_all c (px c))) $$ [HO Htbx Hxrs]
  · isplitr; · iapply (inv_at m K (px c, 0)); iexact HR
    isplitl [HO]; · iexact HO
    isplitl [Htbx]; · iexact Htbx
    isplitl [Hxrs]
    · rw [payload_bar, px_px]; simp only [Bool.false_eq_true, if_false]; iexact Hxrs
    iapply (reached_at m K (px c, 0)); iexact HR
  iintro HO
  ihave Hyrs := (yr_split (F := F) c) $$ [Hyr]
  · iexists fy; iexact Hyr
  iapply (step_signal m c (py c) barS true (K (py c, 0)) (O₁ c) (OxUp c 11) rfl W (routes_all c (py c))) $$ [HO Htby Hyrs]
  · isplitr; · iapply (inv_at m K (py c, 0)); iexact HR
    isplitl [HO]; · iexact HO
    isplitl [Htby]; · iexact Htby
    isplitl [Hyrs]
    · rw [payload_bar, py_py]; simp only [if_true]; iexact Hyrs
    iapply (reached_at m K (py c, 0)); iexact HR
  iintro HO
  iapply (step_wait_dma m c (dI 1) (K (c, 2)) (OxUp c 11) W NX rfl rfl) $$ [Hc1 HO Ha1]
  · isplitr; · iapply (inv_at m K (c, 2)); iexact HR
    isplitl [Hc1]; · iexact Hc1
    isplitl [HO]; · iexact HO
    isplitr
    · iapply (mayWait_of c (.dma (dI 1)) (OxUp c 11) 2 (show (if 13 ≤ 1 ∧ 1 ≤ 23 then 2 else if 31 ≤ 1 then 3 else 0) < 2 from by decide) (fun g u h => OxUp_pos 11 h))
      iexact Hlev
    iexact Ha1
  iintro ⟨HO, Ha1, -, Hp⟩
  ihave Hp := (Entails.of_eq (show payD m c 1 = iprop((xvM.view.loc (c : Thread nD τ) ↦[xvM.view.set]{fullShare} Xv m c) ∗ (aM.view.loc (c : Thread nD τ) ↦[aM.view.set]{fullShare} Xa m c)) from rfl)) $$ Hp
  icases Hp with ⟨Hxv, Harg⟩
  iapply (step_wait_reg m c barS (K (c, 0)) (OxUp c 11) _) $$ [Hcb HO Hab]
  · isplitr; · iapply (inv_at m K (c, 0)); iexact HR
    isplitl [Hcb]; · iexact Hcb
    isplitl [HO]; · iexact HO
    isplitr
    · iapply (mayWait_of c (.reg barS) (OxUp c 11) 2 (show (if barS = barS then 1 else 4) < 2 from by decide) (fun g u h => OxUp_pos 11 h))
      iexact Hlev
    iexact Hab
  iintro ⟨HO, Hab, -, Hp⟩
  ihave Hp := (Entails.of_eq (rest_bar m c)) $$ Hp
  icases Hp with ⟨HXR, HYR⟩
  ihave Hss := (xs_split (F := F) c) $$ [Hxs]
  · iexists fs; iexact Hxs
  ihave Hout := (Entails.of_eq (whole_pts c cc0_stg0_0 g0).symm) $$ Hout
  simp only [wp_bind]
  iapply (seg1b m K c g0 _ _ _ _ _ _ _ _)
  isplitr [Hk Hab]
  · unfold St0 finP xvP argP outP xsAll
    simp only [bigSepL_cons_cons, bigSepL_singleton, sep_notation, crD, at0, at1, tkD]
    iframe
    isplitr; · iexact HR
    isplitr; · iexact Hlev
    iexists _; iexact HO
  iintro H
  iapply (seg2a m K c g0 _ _ _ _ _ _ _)
  isplitl [H]; · iexact H
  iintro H
  iapply (seg2b_alt m K c g0 _ _ _ _ _ _ _ _)
  isplitl [H]; · iexact H
  iintro H
  iapply (seg3 m K c g0 _ _ _ _ _)
  isplitl [H]; · iexact H
  iintro H
  iapply (seg4 m K c g0 _ _ _ _ _ Kt)
  isplitl [H]; · iexact H
  iintro H
  rw [wp_ret]
  imod (finish m K c g0) $$ H with ⟨HΦ, ⟨%W', HO⟩, Hst⟩
  imodintro
  iapply Hk
  unfold bodyPost Dat.owesAt Pipeline.owesWithin
  rw [show (dats m ρ 0 c).owed t₀.succ = 0 from rfl]
  isplitl [HΦ]; · iexact HΦ
  isplitl [HO]
  · iexists W'
    isplitr; · ipureintro; exact fun _ _ => Or.inl trivial
    iexact HO
  iexact Hst

private theorem bigSep_W (Φ : Fin cfg0.W → sProp 𝕄) : bigSep Finset.univ Φ = iprop(Φ (0 : Fin 1)) := bigSep_W0 Φ

private theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 8000 in
set_option maxHeartbeats 2000000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (bodyProg (F := F)) (fun _ => bodyPost m ρ c)
  iintro H
  iapply (sound_body m ρ c fun _ => bodyPost m ρ c)
  isplitl [H]; · iexact H
  iintro H; iexact H

/-- info: 'Cert.KernelIdeal.AR.body_obligation' depends on axioms: [propext, Classical.choice, Quot.sound] -/
#guard_msgs in #print axioms body_obligation

end Cert.KernelIdeal.AR

end
-- ==== Proof.OutValue.lean ====
import proofs.«900705_g7700000000000706_dist_ar_v7x_xyz2x2x4_x_m1024_n512_bf16_1_alg».proof.Proof.OutCover
import Idealize.ShloMosaic.PureOps.Ideal
import Idealize.ShloMosaic.Lib.ValueIdx
import Idealize.ShloMosaic.Lib.Pipeline.Value

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

def sumX (o : Dev nD) : (cc0_stg0_0 : Ref sig .tc).ty.Contents (Elt Ideal) :=
  fun i => ((show EReal from Xv m o i) + (show EReal from Xv m (px o) i) : EReal)

theorem ldX64_apply (o : Dev nD) (off : Fin 2 → ℕ) (h : ∀ a, off a + S64x512.size a ≤ S1024x512.size a) (x : S64x512.Idx) :
    ldX64 m o off h x = Xv m o ((Rect.unit (s := S1024x512) off S64x512.size h).emb x) := rfl
theorem ldX32_apply (o : Dev nD) (off : Fin 2 → ℕ) (h : ∀ a, off a + S32x512.size a ≤ S1024x512.size a) (x : S32x512.Idx) :
    ldX32 m o off h x = Xv m o ((Rect.unit (s := S1024x512) off S32x512.size h).emb x) := rfl

theorem sx0_eq (p : Dev nD) (x : S64x512.Idx) :
    (show EReal from sx0 m p x) = (show EReal from ldX64 m p (k0_off1 p 0#32) (k0_off1_inb p 0) x) := by
  unfold sx0 k0_pay1
  rw [shapeCast_self]
  rfl
theorem sx1_eq (p : Dev nD) (x : S64x512.Idx) :
    (show EReal from sx1 m p x) = (show EReal from ldX64 m p (k0_off1 p 64#32) (k0_off1_inb p 1) x) := by
  unfold sx1 k0_pay2
  rw [shapeCast_self]
  rfl
theorem sx2_eq (p : Dev nD) (x : S64x512.Idx) :
    (show EReal from sx2 m p x) = (show EReal from ldX64 m p (k0_off1 p 128#32) (k0_off1_inb p 2) x) := by
  unfold sx2 k0_pay3
  rw [shapeCast_self]
  rfl
theorem sx3_eq (p : Dev nD) (x : S64x512.Idx) :
    (show EReal from sx3 m p x) = (show EReal from ldX64 m p (k0_off1 p 192#32) (k0_off1_inb p 3) x) := by
  unfold sx3 k0_pay4
  rw [shapeCast_self]
  rfl
theorem sx4_eq (p : Dev nD) (x : S64x512.Idx) :
    (show EReal from sx4 m p x) = (show EReal from ldX64 m p (k0_off1 p 256#32) (k0_off1_inb p 4) x) := by
  unfold sx4 k0_pay5
  rw [shapeCast_self]
  rfl
theorem sx5_eq (p : Dev nD) (x : S64x512.Idx) :
    (show EReal from sx5 m p x) = (show EReal from ldX64 m p (k0_off1 p 320#32) (k0_off1_inb p 5) x) := by
  unfold sx5 k0_pay7 k0_pay6
  rw [shapeCast_self]
  rfl
theorem sx6_eq (p : Dev nD) (x : S32x512.Idx) :
    (show EReal from sx6 m p x) = (show EReal from ldX32 m p (k0_off2 p 384#32) (k0_off2_inb p 0) x) := by
  unfold sx6 k0_pay8
  rw [shapeCast_self]
  rfl
theorem sx7_eq (p : Dev nD) (x : S64x512.Idx) :
    (show EReal from sx7 m p x) = (show EReal from ldX64 m p (k0_off1 p 416#32) (k0_off1_inb p 6) x) := by
  unfold sx7 k0_pay9
  rw [shapeCast_self]
  rfl
theorem sx8_eq (p : Dev nD) (x : S32x512.Idx) :
    (show EReal from sx8 m p x) = (show EReal from ldX32 m p (k0_off2 p 480#32) (k0_off2_inb p 1) x) := by
  unfold sx8 k0_pay10
  rw [shapeCast_self]
  rfl
theorem sx9_eq (p : Dev nD) (x : S64x512.Idx) :
    (show EReal from sx9 m p x) = (show EReal from ldX64 m p (k0_off3 p) (k0_off3_inb p) x) := by
  unfold sx9 k0_pay11
  rw [shapeCast_self]
  rfl
theorem sx10_eq (p : Dev nD) (x : S32x512.Idx) :
    (show EReal from sx10 m p x) = (show EReal from ldX32 m p (k0_off4 p) (k0_off4_inb p) x) := by
  unfold sx10 k0_pay13 k0_pay12
  rw [shapeCast_self]
  rfl

theorem pay14_apply (a : Vec Ideal S64x512 .f32) (b : Vec Ideal S64x512 .bf16) (x : S64x512.Idx) :
    (show EReal from k0_pay14 a b x) = (show EReal from a x) + (show EReal from b x) := rfl
theorem pay15_apply (a : Vec Ideal S64x512 .f32) (b : Vec Ideal S64x512 .bf16) (x : S64x512.Idx) :
    (show EReal from k0_pay15 a b x) = (show EReal from a x) + (show EReal from b x) := rfl
theorem pay16_apply (a : Vec Ideal S64x512 .f32) (b : Vec Ideal S64x512 .bf16) (x : S64x512.Idx) :
    (show EReal from k0_pay16 a b x) = (show EReal from a x) + (show EReal from b x) := rfl
theorem pay17_apply (a : Vec Ideal S64x512 .f32) (b : Vec Ideal S64x512 .bf16) (x : S64x512.Idx) :
    (show EReal from k0_pay17 a b x) = (show EReal from a x) + (show EReal from b x) := rfl
theorem pay18_apply (a : Vec Ideal S64x512 .f32) (b : Vec Ideal S64x512 .bf16) (x : S64x512.Idx) :
    (show EReal from k0_pay18 a b x) = (show EReal from a x) + (show EReal from b x) := rfl
theorem pay19_apply (a : Vec Ideal S64x512 .f32) (b : Vec Ideal S64x512 .bf16) (x : S64x512.Idx) :
    (show EReal from k0_pay19 a b x) = (show EReal from a x) + (show EReal from b x) := rfl
theorem pay20_apply (a : Vec Ideal S32x512 .f32) (b : Vec Ideal S32x512 .bf16) (x : S32x512.Idx) :
    (show EReal from k0_pay20 a b x) = (show EReal from a x) + (show EReal from b x) := rfl
theorem pay21_apply (a : Vec Ideal S64x512 .f32) (b : Vec Ideal S64x512 .bf16) (x : S64x512.Idx) :
    (show EReal from k0_pay21 a b x) = (show EReal from a x) + (show EReal from b x) := rfl
theorem pay22_apply (a : Vec Ideal S32x512 .f32) (b : Vec Ideal S32x512 .bf16) (x : S32x512.Idx) :
    (show EReal from k0_pay22 a b x) = (show EReal from a x) + (show EReal from b x) := rfl
theorem pay23_apply (a : Vec Ideal S64x512 .f32) (b : Vec Ideal S64x512 .bf16) (x : S64x512.Idx) :
    (show EReal from k0_pay23 a b x) = (show EReal from a x) + (show EReal from b x) := rfl
theorem pay24_apply (a : Vec Ideal S32x512 .f32) (b : Vec Ideal S32x512 .bf16) (x : S32x512.Idx) :
    (show EReal from k0_pay24 a b x) = (show EReal from a x) + (show EReal from b x) := rfl
theorem pay25_apply (a : Vec Ideal S64x512 .f32) (b : Vec Ideal S64x512 .bf16) (x : S64x512.Idx) :
    (show EReal from k0_pay25 a b x) = (show EReal from a x) + (show EReal from b x) := rfl
theorem pay26_apply (a : Vec Ideal S64x512 .f32) (b : Vec Ideal S64x512 .bf16) (x : S64x512.Idx) :
    (show EReal from k0_pay26 a b x) = (show EReal from a x) + (show EReal from b x) := rfl
theorem pay27_apply (a : Vec Ideal S64x512 .f32) (b : Vec Ideal S64x512 .bf16) (x : S64x512.Idx) :
    (show EReal from k0_pay27 a b x) = (show EReal from a x) + (show EReal from b x) := rfl
theorem pay28_apply (a : Vec Ideal S64x512 .f32) (b : Vec Ideal S64x512 .bf16) (x : S64x512.Idx) :
    (show EReal from k0_pay28 a b x) = (show EReal from a x) + (show EReal from b x) := rfl
theorem pay29_apply (a : Vec Ideal S64x512 .f32) (b : Vec Ideal S64x512 .bf16) (x : S64x512.Idx) :
    (show EReal from k0_pay29 a b x) = (show EReal from a x) + (show EReal from b x) := rfl
theorem pay30_apply (a : Vec Ideal S64x512 .f32) (b : Vec Ideal S64x512 .bf16) (x : S64x512.Idx) :
    (show EReal from k0_pay30 a b x) = (show EReal from a x) + (show EReal from b x) := rfl
theorem pay31_apply (a : Vec Ideal S32x512 .f32) (b : Vec Ideal S32x512 .bf16) (x : S32x512.Idx) :
    (show EReal from k0_pay31 a b x) = (show EReal from a x) + (show EReal from b x) := rfl

theorem off1_px : ∀ o : Dev nD, ∀ r : Fin 7, k0_off1 (px o) (k0_off1_at r) = k0_off1 o (k0_off1_at r) := by decide +kernel
theorem off2_px : ∀ o : Dev nD, ∀ r : Fin 2, k0_off2 (px o) (BitVec.ofNat 32 (384 + 96 * r.val)) = k0_off2 o (BitVec.ofNat 32 (384 + 96 * r.val)) := by decide +kernel
theorem off3_px : ∀ o : Dev nD, k0_off3 (px o) = k0_off3 o := by decide +kernel
theorem off4_px : ∀ o : Dev nD, k0_off4 (px o) = k0_off4 o := by decide +kernel
theorem off5_pxpy : ∀ o : Dev nD, ∀ r : Fin 6, k0_off1 (px (py o)) (BitVec.ofNat 32 (64 * r.val)) = k0_off5 o (BitVec.ofNat 32 (64 * r.val)) := by decide +kernel
theorem off6_pxpy : ∀ o : Dev nD, k0_off2 (px (py o)) 384#32 = k0_off6 o := by decide +kernel

theorem write_target {r : Rect S1024x512} (T f : (cc0_stg0_0 : Ref sig .tc).ty.Contents (Elt Ideal)) (w : r.shape.Idx → Elt Ideal .bf16)
    (i : S1024x512.Idx) (hw : ∀ x, w x = T (r.emb x)) (h : i ∉ r.set → f i = T i) :
    (oM.access r).write (Elt Ideal) f w Finset.univ i = T i := by
  by_cases hi : i ∈ (oM.access r).setOn Finset.univ
  · obtain ⟨x, -, rfl⟩ := Finset.mem_map.mp hi
    rw [View.write_emb_of_mem _ _ (Finset.mem_univ x)]
    exact hw x
  · rw [View.write_of_not_mem _ _ _ hi]
    refine h fun hr => hi ?_
    rw [View.setOn_univ, View.set_slice_whole]; exact hr

theorem w64_target (T f : (cc0_stg0_0 : Ref sig .tc).ty.Contents (Elt Ideal)) (off : Fin 2 → ℕ) (h : ∀ a, off a + S64x512.size a ≤ S1024x512.size a)
    (v : Vec Ideal S64x512 .bf16) (i : S1024x512.Idx) (hv : ∀ x, v x = T ((Rect.unit (s := S1024x512) off S64x512.size h).emb x))
    (hh : ¬ (∀ a, off a ≤ i a ∧ (i a : ℕ) < off a + S64x512.size a) → f i = T i) : w64 f off h v i = T i := by
  unfold w64
  exact write_target (r := Rect.unit (s := S1024x512) off S64x512.size h) T f v i hv fun hn => hh fun ha => hn (Rect.mem_set_unit.mpr ha)

theorem w32_target (T f : (cc0_stg0_0 : Ref sig .tc).ty.Contents (Elt Ideal)) (off : Fin 2 → ℕ) (h : ∀ a, off a + S32x512.size a ≤ S1024x512.size a)
    (v : Vec Ideal S32x512 .bf16) (i : S1024x512.Idx) (hv : ∀ x, v x = T ((Rect.unit (s := S1024x512) off S32x512.size h).emb x))
    (hh : ¬ (∀ a, off a ≤ i a ∧ (i a : ℕ) < off a + S32x512.size a) → f i = T i) : w32 f off h v i = T i := by
  unfold w32
  exact write_target (r := Rect.unit (s := S1024x512) off S32x512.size h) T f v i hv fun hn => hh fun ha => hn (Rect.mem_set_unit.mpr ha)

theorem sum64 (o p : Dev nD) (hp : ∀ j, (show EReal from Xv m p j) = (show EReal from Xv m (px o) j)) (off offp : Fin 2 → ℕ)
    (h : ∀ a, off a + S64x512.size a ≤ S1024x512.size a) (hp' : ∀ a, offp a + S64x512.size a ≤ S1024x512.size a) (e : offp = off)
    (b : Vec Ideal S64x512 .bf16) (hb : ∀ x, (show EReal from b x) = (show EReal from ldX64 m p offp hp' x)) (x : S64x512.Idx) :
    (show EReal from ldX64 m o off h x) + (show EReal from b x) = sumX m o ((Rect.unit (s := S1024x512) off S64x512.size h).emb x) := by
  subst e
  rw [hb x, ldX64_apply, ldX64_apply, hp]
  rfl

theorem sum32 (o p : Dev nD) (hp : ∀ j, (show EReal from Xv m p j) = (show EReal from Xv m (px o) j)) (off offp : Fin 2 → ℕ)
    (h : ∀ a, off a + S32x512.size a ≤ S1024x512.size a) (hp' : ∀ a, offp a + S32x512.size a ≤ S1024x512.size a) (e : offp = off)
    (b : Vec Ideal S32x512 .bf16) (hb : ∀ x, (show EReal from b x) = (show EReal from ldX32 m p offp hp' x)) (x : S32x512.Idx) :
    (show EReal from ldX32 m o off h x) + (show EReal from b x) = sumX m o ((Rect.unit (s := S1024x512) off S32x512.size h).emb x) := by
  subst e
  rw [hb x, ldX32_apply, ldX32_apply, hp]
  rfl

theorem outC_eq_sumX (o : Dev nD)
    (hsame : m ((px (py o) : Thread nD τ).loc main_arg0) = m ((px o : Thread nD τ).loc main_arg0)) :
    outC m o junk = sumX m o := by
  have hp : ∀ j, (show EReal from Xv m (px (py o)) j) = (show EReal from Xv m (px o) j) := fun j => congrFun hsame j
  funext i
  unfold outC outA out6
  refine w32_target _ _ _ _ _ i (fun x => (pay31_apply _ _ x).trans (sum32 m o (px (py o)) hp _ _ _ _ (off6_pxpy o) _ (sx6_eq m (px (py o))) x)) fun h18 => ?_
  refine w64_target _ _ _ _ _ i (fun x => (pay30_apply _ _ x).trans (sum64 m o (px (py o)) hp _ _ _ _ (off5_pxpy o 5) _ (sx5_eq m (px (py o))) x)) fun h17 => ?_
  refine w64_target _ _ _ _ _ i (fun x => (pay29_apply _ _ x).trans (sum64 m o (px (py o)) hp _ _ _ _ (off5_pxpy o 4) _ (sx4_eq m (px (py o))) x)) fun h16 => ?_
  refine w64_target _ _ _ _ _ i (fun x => (pay28_apply _ _ x).trans (sum64 m o (px (py o)) hp _ _ _ _ (off5_pxpy o 3) _ (sx3_eq m (px (py o))) x)) fun h15 => ?_
  refine w64_target _ _ _ _ _ i (fun x => (pay27_apply _ _ x).trans (sum64 m o (px (py o)) hp _ _ _ _ (off5_pxpy o 2) _ (sx2_eq m (px (py o))) x)) fun h14 => ?_
  refine w64_target _ _ _ _ _ i (fun x => (pay26_apply _ _ x).trans (sum64 m o (px (py o)) hp _ _ _ _ (off5_pxpy o 1) _ (sx1_eq m (px (py o))) x)) fun h13 => ?_
  refine w64_target _ _ _ _ _ i (fun x => (pay25_apply _ _ x).trans (sum64 m o (px (py o)) hp _ _ _ _ (off5_pxpy o 0) _ (sx0_eq m (px (py o))) x)) fun h12 => ?_
  refine w32_target _ _ _ _ _ i (fun x => (pay24_apply _ _ x).trans (sum32 m o (px o) (fun _ => rfl) _ _ _ _ (off4_px o) _ (sx10_eq m (px o)) x)) fun h11 => ?_
  refine w64_target _ _ _ _ _ i (fun x => (pay23_apply _ _ x).trans (sum64 m o (px o) (fun _ => rfl) _ _ _ _ (off3_px o) _ (sx9_eq m (px o)) x)) fun h10 => ?_
  refine w32_target _ _ _ _ _ i (fun x => (pay22_apply _ _ x).trans (sum32 m o (px o) (fun _ => rfl) _ _ _ _ (off2_px o 1) _ (sx8_eq m (px o)) x)) fun h9 => ?_
  refine w64_target _ _ _ _ _ i (fun x => (pay21_apply _ _ x).trans (sum64 m o (px o) (fun _ => rfl) _ _ _ _ (off1_px o 6) _ (sx7_eq m (px o)) x)) fun h8 => ?_
  refine w32_target _ _ _ _ _ i (fun x => (pay20_apply _ _ x).trans (sum32 m o (px o) (fun _ => rfl) _ _ _ _ (off2_px o 0) _ (sx6_eq m (px o)) x)) fun h7 => ?_
  refine w64_target _ _ _ _ _ i (fun x => (pay19_apply _ _ x).trans (sum64 m o (px o) (fun _ => rfl) _ _ _ _ (off1_px o 5) _ (sx5_eq m (px o)) x)) fun h6 => ?_
  refine w64_target _ _ _ _ _ i (fun x => (pay18_apply _ _ x).trans (sum64 m o (px o) (fun _ => rfl) _ _ _ _ (off1_px o 4) _ (sx4_eq m (px o)) x)) fun h5 => ?_
  refine w64_target _ _ _ _ _ i (fun x => (pay17_apply _ _ x).trans (sum64 m o (px o) (fun _ => rfl) _ _ _ _ (off1_px o 3) _ (sx3_eq m (px o)) x)) fun h4 => ?_
  refine w64_target _ _ _ _ _ i (fun x => (pay16_apply _ _ x).trans (sum64 m o (px o) (fun _ => rfl) _ _ _ _ (off1_px o 2) _ (sx2_eq m (px o)) x)) fun h3 => ?_
  refine w64_target _ _ _ _ _ i (fun x => (pay15_apply _ _ x).trans (sum64 m o (px o) (fun _ => rfl) _ _ _ _ (off1_px o 1) _ (sx1_eq m (px o)) x)) fun h2 => ?_
  refine w64_target _ _ _ _ _ i (fun x => (pay14_apply _ _ x).trans (sum64 m o (px o) (fun _ => rfl) _ _ _ _ (off1_px o 0) _ (sx0_eq m (px o)) x)) fun h1 => ?_
  exfalso
  have hi0 : (i 0 : ℕ) < 1024 := (i 0).isLt
  have hi1 : (i 1 : ℕ) < 512 := (i 1).isLt
  simp only [off1_0, off1_1, off1_2, off1_3, off1_4, off1_5, off1_6, off2_0, off2_1, k0_off3_eq, k0_off4_eq,
    off5_0, off5_1, off5_2, off5_3, off5_4, off5_5, k0_off6_eq, Fin.forall_fin_two, Matrix.cons_val_zero, Matrix.cons_val_one] at h1 h2 h3 h4 h5 h6 h7 h8 h9 h10 h11 h12 h13 h14 h15 h16 h17 h18
  omega

theorem outC_value (o : Dev nD)
    (hsame : m ((px (py o) : Thread nD τ).loc main_arg0) = m ((px o : Thread nD τ).loc main_arg0)) (i : S1024x512.Idx) :
    (show EReal from outC m o junk i)
      = (show EReal from m ((o : Thread nD τ).loc main_arg0) i) + (show EReal from m ((px o : Thread nD τ).loc main_arg0) i) :=
  congrFun (outC_eq_sumX m o hsame) i

/-- info: 'Cert.KernelIdeal.AR.outC_value' depends on axioms: [propext, Classical.choice, Quot.sound] -/
#guard_msgs in #print axioms outC_value

end Cert.KernelIdeal.AR

end
-- ==== Proof.RefValue.lean ====
import proofs.«900705_g7700000000000706_dist_ar_v7x_xyz2x2x4_x_m1024_n512_bf16_1_alg».proof.Proof.OutValue
import proofs.«900705_g7700000000000706_dist_ar_v7x_xyz2x2x4_x_m1024_n512_bf16_1_alg».proof.Proof.Gen.ReferenceIdeal.Run
import proofs.«900705_g7700000000000706_dist_ar_v7x_xyz2x2x4_x_m1024_n512_bf16_1_alg».proof.Proof.Gen.ReferenceIdeal.Read
import proofs.«900705_g7700000000000706_dist_ar_v7x_xyz2x2x4_x_m1024_n512_bf16_1_alg».proof.Defs
import Idealize.ShloMosaic.Lib.Layout
import Idealize.ShloMosaic.PureOps.Ideal.Laws

noncomputable section

namespace Cert.KernelIdeal.AR

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.ReferenceIdeal.Read (val_main_v0 val_main_v1 val_main_v2 val_main_cst idx_main_v0 idx_main_v1)

abbrev RArg : Type := (⟨Cert.ReferenceIdeal.S2048x512, .f32⟩ : BufTy).Contents (Elt Ideal)

abbrev rowOf (X : RArg) (k : Fin 2) (i : S1024x512.Idx) : EReal := X (idx_main_v0 (idx_main_v1 i k))

theorem ref_apply (X : RArg) (i : S1024x512.Idx) :
    (show EReal from val_main_v2 (F := Ideal) X i) = rowOf X 0 i + rowOf X 1 i := by
  rw [Cert.ReferenceIdeal.Read.val_main_v2_apply]
  show (show EReal from val_main_v1 (F := Ideal) X i) = _
  rw [Cert.ReferenceIdeal.Read.val_main_v1_apply, Fin.sum_univ_two, Cert.ReferenceIdeal.Read.val_main_v0_apply,
    Cert.ReferenceIdeal.Read.val_main_v0_apply, Cert.ReferenceIdeal.Read.val_main_cst_apply, Ideal.ofBits_def, Ideal.ofBits_zero_f32, zero_add]

def xOf (c : Dev nD) : Fin 2 := ⟨c.val / 8, by have : c.val < 16 := c.isLt; omega⟩

theorem meshLin_x : ∀ c : Dev nD, Layout.meshLin [2, 2, 4] c.val [0] = c.val / 8 := by decide
theorem meshLin_nil (c : ℕ) : Layout.meshLin [2, 2, 4] c [] = 0 := rfl

theorem block_apply (c : Dev nD) (X : RArg) (i : S1024x512.Idx) :
    (show EReal from Layout.blockN ⟨2, ![1024, 512]⟩ ⟨2, ![2048, 512]⟩ (Layout.meshBlock [2, 2, 4] ![[0], []] c) X (by decide) i) = rowOf X (xOf c) i := by
  rw [Layout.blockN_apply]
  refine congrArg X (funext fun a => Fin.ext ?_)
  rw [Layout.TilesN.idx_val, Layout.meshBlock_val]
  have h0 : (i 0).val < 1024 := (i 0).isLt
  have h1 : (i 1).val < 512 := (i 1).isLt
  match a with
  | ⟨0, _⟩ =>
    show Layout.meshLin [2, 2, 4] c.val [0] * 1024 + (i 0).val = ((c.val / 8 * 1024 + (i 0).val) * 512 + (i 1).val) / 512
    rw [meshLin_x]; omega
  | ⟨1, _⟩ =>
    show Layout.meshLin [2, 2, 4] c.val [] * 512 + (i 1).val = ((c.val / 8 * 1024 + (i 0).val) * 512 + (i 1).val) % 512
    rw [meshLin_nil]; omega

theorem x_pxpy : ∀ c : Dev nD, xOf (px (py c)) = xOf (px c) := by decide
theorem x_px : ∀ c : Dev nD, (xOf c = 0 ∧ xOf (px c) = 1) ∨ (xOf c = 1 ∧ xOf (px c) = 0) := by decide

variable (m : (ℓ : Loc nD τ sig) → Buf (Elt Ideal) ℓ)
variable (m' : (ℓ : Loc Cert.ReferenceIdeal.nD Cert.ReferenceIdeal.τ Cert.ReferenceIdeal.sig) → Buf (Elt Ideal) ℓ)

abbrev refArg : RArg :=
  m' (((0 : Dev Cert.ReferenceIdeal.nD).tc : Thread Cert.ReferenceIdeal.nD Cert.ReferenceIdeal.τ).loc Cert.ReferenceIdeal.main_arg0)

def refOut : Buf (Elt Ideal) (((0 : Dev Cert.ReferenceIdeal.nD).tc : Thread Cert.ReferenceIdeal.nD Cert.ReferenceIdeal.τ).loc Cert.ReferenceIdeal.main_v2) :=
  val_main_v2 (F := Ideal) (refArg m')

theorem same_of_agree
    (hagree : ∀ c : Dev nD, m ((c.tc : Thread nD τ).loc main_arg0)
      = Layout.blockN ⟨2, ![1024, 512]⟩ ⟨2, ![2048, 512]⟩ (Layout.meshBlock [2, 2, 4] ![[0], []] c) (refArg m'))
    (c : Dev nD) : m ((px (py c) : Thread nD τ).loc main_arg0) = m ((px c : Thread nD τ).loc main_arg0) := by
  rw [hagree (px (py c)), hagree (px c)]
  funext i
  exact (block_apply (px (py c)) _ i).trans ((congrArg (fun k => rowOf (refArg m') k i) (x_pxpy c)).trans (block_apply (px c) _ i).symm)

theorem out_eq_ref
    (hagree : ∀ c : Dev nD, m ((c.tc : Thread nD τ).loc main_arg0)
      = Layout.blockN ⟨2, ![1024, 512]⟩ ⟨2, ![2048, 512]⟩ (Layout.meshBlock [2, 2, 4] ![[0], []] c) (refArg m'))
    (c : Dev nD) : outC (F := Ideal) m c junk = refOut m' := by
  funext i
  refine (outC_value m c (same_of_agree m m' hagree c) i).trans ?_
  rw [hagree c, hagree (px c)]
  refine ((congrArg₂ (· + ·) (block_apply c _ i) (block_apply (px c) _ i)).trans ?_).trans (ref_apply _ i).symm
  rcases x_px c with ⟨h, h'⟩ | ⟨h, h'⟩ <;> rw [h, h']
  exact add_comm (G := EReal) _ _

theorem ref_run (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v2) = refOut m'
      ∧ r.2.mem (((0 : Dev Cert.ReferenceIdeal.nD).tc : Thread Cert.ReferenceIdeal.nD Cert.ReferenceIdeal.τ).loc Cert.ReferenceIdeal.main_arg0)
        = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v2_eq _), (h 0).2⟩)
    (Cert.ReferenceIdeal.Value.run (F := Ideal) m' g')

/-- info: 'Cert.KernelIdeal.AR.out_eq_ref' depends on axioms: [propext, Classical.choice, Quot.sound] -/
#guard_msgs in #print axioms out_eq_ref

/-- info: 'Cert.KernelIdeal.AR.ref_run' depends on axioms: [propext, Classical.choice, Quot.sound] -/
#guard_msgs in #print axioms ref_run

end Cert.KernelIdeal.AR

end
-- ==== Proof.lean ====
import proofs.«900705_g7700000000000706_dist_ar_v7x_xyz2x2x4_x_m1024_n512_bf16_1_alg».proof.Defs
import proofs.«900705_g7700000000000706_dist_ar_v7x_xyz2x2x4_x_m1024_n512_bf16_1_alg».proof.Proof.Gen.Kernel
import proofs.«900705_g7700000000000706_dist_ar_v7x_xyz2x2x4_x_m1024_n512_bf16_1_alg».proof.Proof.Gen.ReferenceIdeal
import proofs.«900705_g7700000000000706_dist_ar_v7x_xyz2x2x4_x_m1024_n512_bf16_1_alg».proof.Proof.Gen.Pre_finite_inputs_Kernel
import proofs.«900705_g7700000000000706_dist_ar_v7x_xyz2x2x4_x_m1024_n512_bf16_1_alg».proof.Proof.Gen.Pre_finite_inputs_ReferenceIdeal
import proofs.«900705_g7700000000000706_dist_ar_v7x_xyz2x2x4_x_m1024_n512_bf16_1_alg».proof.Proof.Launch
import proofs.«900705_g7700000000000706_dist_ar_v7x_xyz2x2x4_x_m1024_n512_bf16_1_alg».proof.Proof.Body
import proofs.«900705_g7700000000000706_dist_ar_v7x_xyz2x2x4_x_m1024_n512_bf16_1_alg».proof.Proof.RefValue

noncomputable section

namespace Cert.Proof

open Idealize.ShloMosaic Idealize.SL.Sem

set_option smartUnfolding false in
/-- The kernel as printed and its idealization are the same term at every float instance. -/
theorem defs_eq {F : FTy → Type} [FloatOps F] : Cert.Kernel.defs (F := F) = Cert.KernelIdeal.defs (F := F) := rfl

/-- So the one run theorem, read at the printed kernel's instance, is its frame. -/
theorem frame_Kernel : Cert.frame_Kernel (hKernel := Cert.Kernel.Gen.facts) (hPre_finite_inputs_Kernel := Cert.Pre_finite_inputs_Kernel.Gen.facts) :=
  fun m g _ => by
    rw [defs_eq]
    exact (θ_run _ _ _).mono (fun _ h c => (h c).2) (Cert.KernelIdeal.AR.run_main (F := Bits) m g (Cert.KernelIdeal.AR.body_obligation m g))

theorem frame_KernelIdeal : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.AR.run_main (F := Ideal) m g (Cert.KernelIdeal.AR.body_obligation m g))

/-- The reference's one device is device 0. -/
theorem frame_ReferenceIdeal : Cert.frame_ReferenceIdeal (hReferenceIdeal := Cert.ReferenceIdeal.Gen.facts)
    (hPre_finite_inputs_ReferenceIdeal := Cert.Pre_finite_inputs_ReferenceIdeal.Gen.facts) :=
  fun m' g' _ => (θ_run _ _ _).mono (fun _ h c => by rw [Subsingleton.elim c 0]; exact h.2)
    (Cert.KernelIdeal.AR.ref_run m' g')

/-- Every device's result is the sum of its block and its x-partner's block, which is the reference's value. -/
theorem algebraic : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m g m' g' _ hagree => ⟨Cert.KernelIdeal.AR.refOut m',
    (θ_run _ _ _).mono
      (fun _ h c => ⟨(((h c).1 (0 : Fin 1)).trans (Cert.KernelIdeal.AR.finalA_out m g c)).trans (Cert.KernelIdeal.AR.out_eq_ref m m' hagree c), (h c).2⟩)
      (Cert.KernelIdeal.AR.run_main (F := Ideal) m g (Cert.KernelIdeal.AR.body_obligation m g)),
    Cert.KernelIdeal.AR.ref_run m' g'⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
